-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x74 : Shape := ⟨2, ![50000, 74]⟩
abbrev S800000 : Shape := ⟨1, ![800000]⟩
abbrev S50000 : Shape := ⟨1, ![50000]⟩
abbrev S74x256 : Shape := ⟨2, ![74, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x74 : S_.BroadcastsInDim S50000x74 (![] : Fin 0 → Fin S50000x74.rank)
  reducesTo_S50000x74_S_d0_1 : S50000x74.ReducesTo [0, 1] S_
  h_S_ : 0 < S_.numel
  bcast_S_S74x256 : S_.BroadcastsInDim S74x256 (![] : Fin 0 → Fin S74x256.rank)
  reducesTo_S74x256_S_d0_1 : S74x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S1024x512 .f32) (main_arg11 : FVec F S512 .f32) (main_arg12 : FVec F S512x1 .f32) (main_arg13 : FVec F S1 .f32) (main_v33 : IVec S_ 1) : IVec S_ 1 :=
  let main_v34 : FVec F S1024x512 .f32 := Host.absf main_arg10
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg11
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg12
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S256 .f32) (main_arg8 : FVec F S256x1024 .f32) (main_arg9 : FVec F S1024 .f32) (main_arg10 : FVec F S1024x512 .f32) (main_arg11 : FVec F S512 .f32) (main_arg12 : FVec F S512x1 .f32) (main_arg13 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg8
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg9
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x74 .f32) (main_arg1 : IVec S800000 32) (main_arg2 : IVec S800000 32) (main_arg3 : IVec S50000 32) (main_arg4 : FVec F S74x256 .f32) (main_arg5 : FVec F S256 .f32) (main_arg6 : FVec F S256x256 .f32) (main_arg7 : FVec F S256 .f32) (main_arg8 : FVec F S256x1024 .f32) (main_arg9 : FVec F S1024 .f32) (main_arg10 : FVec F S1024x512 .f32) (main_arg11 : FVec F S512 .f32) (main_arg12 : FVec F S512x1 .f32) (main_arg13 : FVec F S1 .f32) : IVec S_ 1 :=
  let main_v0 : FVec F S50000x74 .f32 := Host.absf main_arg0
  let main_cst : FVec F S_ .f32 := constant S_ .f32 0x7F800000#32
  let main_v1 : FVec F S50000x74 .f32 := broadcastInDim S50000x74 ![] bcast_S_S50000x74 main_cst
  let main_v2 : IVec S50000x74 1 := cmpf .olt main_v0 main_v1
  let main_c : IVec S_ 1 := constantI S_ 1 1#1
  let main_v3 : IVec S_ 1 := (fun x v => Host.reduce IntOp.andi x v reducesTo_S50000x74_S_d0_1 h_S_) main_v2 main_c
  let main_v4 : FVec F S74x256 .f32 := Host.absf main_arg4
  let main_cst_0 : FVec F S_ .f32 := constant S_ .f32 0x7F800000#32
  let main_v5 : FVec F S74x256 .f32 := broadcastInDim S74x256 ![] bcast_S_S74x256 main_cst_0
  let main_v6 : IVec S74x256 1 := cmpf .olt main_v4 main_v5
  let main_c_1 : IVec S_ 1 := constantI S_ 1 1#1
  let main_v7 : IVec S_ 1 := (fun x v => Host.reduce IntOp.andi x v reducesTo_S74x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_arg12 main_arg13 main_v13 main_v16
-- ==== Kernel.lean ====
abbrev S50000x74 : Shape := ⟨2, ![50000, 74]⟩
abbrev S800000 : Shape := ⟨1, ![800000]⟩
abbrev S50000 : Shape := ⟨1, ![50000]⟩
abbrev S74x256 : Shape := ⟨2, ![74, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S800000x74 : Shape := ⟨2, ![800000, 74]⟩
abbrev S1x256 : Shape := ⟨2, ![1, 256]⟩
abbrev S50000x256 : Shape := ⟨2, ![50000, 256]⟩
abbrev S5000x74 : Shape := ⟨2, ![5000, 74]⟩
abbrev S5000x256 : Shape := ⟨2, ![5000, 256]⟩
abbrev S800000x256 : Shape := ⟨2, ![800000, 256]⟩
abbrev S1x1024 : Shape := ⟨2, ![1, 1024]⟩
abbrev S1x512 : Shape := ⟨2, ![1, 512]⟩
abbrev S1x1 : Shape := ⟨2, ![1, 1]⟩
abbrev S5000x1 : Shape := ⟨2, ![5000, 1]⟩
abbrev S512x256 : Shape := ⟨2, ![512, 256]⟩
abbrev S5000x512 : Shape := ⟨2, ![5000, 512]⟩
abbrev S512x1024 : Shape := ⟨2, ![512, 1024]⟩
abbrev S512x512 : Shape := ⟨2, ![512, 512]⟩

abbrev nBuf : Space → Nat
  | .hbm => 93
  | .vmem => 25
  | .smem => 0
  | _ => 0

abbrev bufTy : (tb : Table) → Fin (tcTables nBuf tb) → BufTy
  | .hbm, ⟨0, _⟩ => ⟨S50000x74, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S74x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x74, .f32⟩
  | .hbm, ⟨36, _⟩ => ⟨S50000x74, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x74, .f32⟩
  | .hbm, ⟨46, _⟩ => ⟨S_, .f32⟩
  | .hbm, ⟨47, _⟩ => ⟨S50000x74, .f32⟩
  | .hbm, ⟨48, _⟩ => ⟨S800000x1, .i32⟩
  | .hbm, ⟨49, _⟩ => ⟨S50000x74, .f32⟩
  | .hbm, ⟨50, _⟩ => ⟨S50000x1, .f32⟩
  | .hbm, ⟨51, _⟩ => ⟨S50000x74, .f32⟩
  | .hbm, ⟨52, _⟩ => ⟨S50000x74, .f32⟩
  | .hbm, ⟨53, _⟩ => ⟨S1x256, .f32⟩
  | .hbm, ⟨54, _⟩ => ⟨S50000x256, .f32⟩
  | .hbm, ⟨55, _⟩ => ⟨S50000x1, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S512, .f32⟩
  | .hbm, ⟨80, _⟩ => ⟨S50000x1, .i32⟩
  | .hbm, ⟨81, _⟩ => ⟨S512, .f32⟩
  | .hbm, ⟨82, _⟩ => ⟨S_, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512x1, .f32⟩
  | .hbm, ⟨87, _⟩ => ⟨S50000x1, .i32⟩
  | .hbm, ⟨88, _⟩ => ⟨S1x1024, .f32⟩
  | .hbm, ⟨89, _⟩ => ⟨S1x512, .f32⟩
  | .hbm, ⟨90, _⟩ => ⟨S1x1, .f32⟩
  | .hbm, ⟨91, _⟩ => ⟨S512x1, .f32⟩
  | .hbm, ⟨92, _⟩ => ⟨S512, .f32⟩
  | .local _ .vmem, ⟨0, _⟩ => ⟨S5000x74, .f32⟩
  | .local _ .vmem, ⟨1, _⟩ => ⟨S5000x74, .f32⟩
  | .local _ .vmem, ⟨2, _⟩ => ⟨S74x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x1, .i32⟩
  | .local _ .vmem, ⟨15, _⟩ => ⟨S5000x1, .i32⟩
  | .local _ .vmem, ⟨16, _⟩ => ⟨S512x1, .f32⟩
  | .local _ .vmem, ⟨17, _⟩ => ⟨S256x1024, .f32⟩
  | .local _ .vmem, ⟨18, _⟩ => ⟨S1x1024, .f32⟩
  | .local _ .vmem, ⟨19, _⟩ => ⟨S1024x512, .f32⟩
  | .local _ .vmem, ⟨20, _⟩ => ⟨S1x512, .f32⟩
  | .local _ .vmem, ⟨21, _⟩ => ⟨S512x1, .f32⟩
  | .local _ .vmem, ⟨22, _⟩ => ⟨S1x1, .f32⟩
  | .local _ .vmem, ⟨23, _⟩ => ⟨S512x1, .f32⟩
  | .local _ .vmem, ⟨24, _⟩ => ⟨S512x256, .f32⟩
  | _, _ => ⟨S50000x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S74x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x74_0_1 : S50000x1.BroadcastsInDim S50000x74 (![0, 1] : Fin 2 → Fin S50000x74.rank)
  bcast_S_S50000x74 : S_.BroadcastsInDim S50000x74 (![] : Fin 0 → Fin S50000x74.rank)
  shapeCasts_S256_S1x256 : S256.ShapeCasts S1x256
  inb_S5000x74_S5000x74_0_0 : ∀ a, (![0, 0] : Fin 2 → Nat) a + S5000x74.size a ≤ S5000x74.size a
  h_S5000x74 : 0 < S5000x74.numel
  shapeCasts_S5000x74_S5000x74 : S5000x74.ShapeCasts S5000x74
  bitsLt_bf16_f32 : FTy.bits .bf16 < FTy.bits .f32
  inb_S74x256_S74x256_0_0 : ∀ a, (![0, 0] : Fin 2 → Nat) a + S74x256.size a ≤ S74x256.size a
  h_S74x256 : 0 < S74x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S512 : S_.BroadcastsInDim S512 (![] : Fin 0 → Fin S512.rank)
  shapeCasts_S512_S512x1 : S512.ShapeCasts S512x1
  shapeCasts_S50000_S50000x1 : S50000.ShapeCasts S50000x1
  shapeCasts_S1024_S1x1024 : S1024.ShapeCasts S1x1024
  shapeCasts_S512_S1x512 : S512.ShapeCasts S1x512
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  scatter_S50000_S800000x1_S800000_n_0_0_1_wf : ScatterDims.WF S50000 S800000x1 S800000 [] [0] [0] 1
  gather_S50000x74_S800000x1_S800000x74_1_0_n_n_0_1_174_wf : GatherDims.WF S50000x74 S800000x1 S800000x74 [1] [0] [] [0] [] 1 ![1, 74]
  scatter_S50000x74_S800000x1_S800000x74_1_0_0_1_wf : ScatterDims.WF S50000x74 S800000x1 S800000x74 [1] [0] [0] 1
  dot_S5000x74_S74x256_S5000x256_1_0_0_1_n_n_wf : DotDims.WF S5000x74 S74x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S512_S50000x1_S50000_n_0_0_1_wf : ScatterDims.WF S512 S50000x1 S50000 [] [0] [0] 1
  dot_S5000x512_S5000x256_S512x256_0_0_1_1_n_n_wf : DotDims.WF S5000x512 S5000x256 S512x256 [0] [0] [1] [1] [] []
  dot_S512x256_S256x1024_S512x1024_1_0_0_1_n_n_wf : DotDims.WF S512x256 S256x1024 S512x1024 [1] [0] [0] [1] [] []
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x74.size a ≤ S50000x74.size a
  hwx0_0 : ∀ i : grid0.Coords, EltTy.bits .f32 = 32 ∨ (Rect.block (s := S50000x74) S5000x74.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S74x256.size a ≤ S74x256.size a
  hwx0_1 : ∀ i : grid0.Coords, EltTy.bits .f32 = 32 ∨ (Rect.block (s := S74x256) S74x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S512x1.size a
  hwx2_2 : ∀ i : grid2.Coords, EltTy.bits .f32 = 32 ∨ (Rect.block (s := S512x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S256x1024.size a
  hwx2_3 : ∀ i : grid2.Coords, EltTy.bits .f32 = 32 ∨ (Rect.block (s := S256x1024) S256x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S1024x512.size a
  hwx2_5 : ∀ i : grid2.Coords, EltTy.bits .f32 = 32 ∨ (Rect.block (s := S1024x512) S1024x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x1.size a ≤ S512x1.size a
  hwx2_9 : ∀ i : grid2.Coords, EltTy.bits .f32 = 32 ∨ (Rect.block (s := S512x1) S512x1.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x74_S800000x1_S800000x74_1_0_n_n_0_1_174 : GatherDims S50000x74 S800000x1 S800000x74 where
  offsetDims := [1]
  collapsedSliceDims := [0]
  operandBatchingDims := []
  startIndicesBatchingDims := []
  startIndexMap := [0]
  indexVectorDim := 1
  sliceSizes := ![1, 74]
  wf := gather_S50000x74_S800000x1_S800000x74_1_0_n_n_0_1_174_wf
def scatter_S50000x74_S800000x1_S800000x74_1_0_0_1 : ScatterDims S50000x74 S800000x1 S800000x74 where
  updateWindowDims := [1]
  insertedWindowDims := [0]
  scatterDimsToOperandDims := [0]
  indexVectorDim := 1
  wf := scatter_S50000x74_S800000x1_S800000x74_1_0_0_1_wf
def dot_S5000x74_S74x256_S5000x256_1_0_0_1_n_n : DotDims S5000x74 S74x256 S5000x256 where
  lhsContracting := [1]
  rhsContracting := [0]
  lhsNonContracting := [0]
  rhsNonContracting := [1]
  lhsBatch := []
  rhsBatch := []
  wf := dot_S5000x74_S74x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S5000x512_S5000x256_S512x256_0_0_1_1_n_n : DotDims S5000x512 S5000x256 S512x256 where
  lhsContracting := [0]
  rhsContracting := [0]
  lhsNonContracting := [1]
  rhsNonContracting := [1]
  lhsBatch := []
  rhsBatch := []
  wf := dot_S5000x512_S5000x256_S512x256_0_0_1_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_v26) S5000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S74x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S512x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1024x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S512x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v57) S512x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S50000x74 : Shape := ⟨2, ![50000, 74]⟩
abbrev S800000 : Shape := ⟨1, ![800000]⟩
abbrev S50000 : Shape := ⟨1, ![50000]⟩
abbrev S74x256 : Shape := ⟨2, ![74, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S800000x74 : Shape := ⟨2, ![800000, 74]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S512x1024 : Shape := ⟨2, ![512, 1024]⟩
abbrev S1x1024 : Shape := ⟨2, ![1, 1024]⟩
abbrev S512x512 : Shape := ⟨2, ![512, 512]⟩
abbrev S1x512 : Shape := ⟨2, ![1, 512]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x74, .f32⟩
  | 1 => ⟨S800000, .i32⟩
  | 2 => ⟨S800000, .i32⟩
  | 3 => ⟨S50000, .i32⟩
  | 4 => ⟨S74x256, .f32⟩
  | 5 => ⟨S256, .f32⟩
  | 6 => ⟨S256x256, .f32⟩
  | 7 => ⟨S256, .f32⟩
  | 8 => ⟨S256x1024, .f32⟩
  | 9 => ⟨S1024, .f32⟩
  | 10 => ⟨S1024x512, .f32⟩
  | 11 => ⟨S512, .f32⟩
  | 12 => ⟨S512x1, .f32⟩
  | 13 => ⟨S1, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000, .f32⟩
  | 33 => ⟨S50000x1, .f32⟩
  | 34 => ⟨S50000x74, .f32⟩
  | 35 => ⟨S50000x74, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x74, .f32⟩
  | 45 => ⟨S_, .f32⟩
  | 46 => ⟨S50000x74, .f32⟩
  | 47 => ⟨S800000x1, .i32⟩
  | 48 => ⟨S50000x74, .f32⟩
  | 49 => ⟨S50000, .f32⟩
  | 50 => ⟨S50000x1, .f32⟩
  | 51 => ⟨S50000x74, .f32⟩
  | 52 => ⟨S50000x74, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S_, .f32⟩
  | 68 => ⟨S50000, .f32⟩
  | 69 => ⟨S50000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S50000x256, .f32⟩
  | 81 => ⟨S50000x256, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x256, .f32⟩
  | 91 => ⟨S_, .f32⟩
  | 92 => ⟨S50000x256, .f32⟩
  | 93 => ⟨S800000x1, .i32⟩
  | 94 => ⟨S50000x256, .f32⟩
  | 95 => ⟨S50000, .f32⟩
  | 96 => ⟨S50000x1, .f32⟩
  | 97 => ⟨S50000x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S_, .f32⟩
  | 107 => ⟨S50000, .f32⟩
  | 108 => ⟨S_, .f32⟩
  | 109 => ⟨S512, .f32⟩
  | 110 => ⟨S50000x1, .i32⟩
  | 111 => ⟨S512, .f32⟩
  | 112 => ⟨S_, .f32⟩
  | 113 => ⟨S_, .f32⟩
  | 114 => ⟨S512, .f32⟩
  | 115 => ⟨S512, .f32⟩
  | 116 => ⟨S_, .f32⟩
  | 117 => ⟨S512x256, .f32⟩
  | 118 => ⟨S50000x1, .i32⟩
  | 119 => ⟨S512x256, .f32⟩
  | 120 => ⟨S512x1, .f32⟩
  | 121 => ⟨S512x256, .f32⟩
  | 122 => ⟨S512x256, .f32⟩
  | 123 => ⟨S512x1024, .f32⟩
  | 124 => ⟨S1x1024, .f32⟩
  | 125 => ⟨S512x1024, .f32⟩
  | 126 => ⟨S512x1024, .f32⟩
  | 127 => ⟨S_, .f32⟩
  | _ => ⟨S50000x74, .f32⟩

abbrev hbmTy0_1 (i : Nat) : BufTy := match i % 128 with
  | 0 => ⟨S_, .f32⟩
  | 1 => ⟨S512x1024, .f32⟩
  | 2 => ⟨S512x1024, .i1⟩
  | 3 => ⟨S_, .f32⟩
  | 4 => ⟨S512x1024, .f32⟩
  | 5 => ⟨S512x1024, .f32⟩
  | 6 => ⟨S512x1024, .f32⟩
  | 7 => ⟨S512x512, .f32⟩
  | 8 => ⟨S1x512, .f32⟩
  | 9 => ⟨S512x512, .f32⟩
  | 10 => ⟨S512x512, .f32⟩
  | 11 => ⟨S_, .f32⟩
  | 12 => ⟨S_, .f32⟩
  | 13 => ⟨S512x512, .f32⟩
  | 14 => ⟨S512x512, .i1⟩
  | 15 => ⟨S_, .f32⟩
  | 16 => ⟨S512x512, .f32⟩
  | 17 => ⟨S512x512, .f32⟩
  | 18 => ⟨S512x512, .f32⟩
  | 19 => ⟨S512x1, .f32⟩
  | 20 => ⟨S1x1, .f32⟩
  | 21 => ⟨S512x1, .f32⟩
  | 22 => ⟨S512x1, .f32⟩
  | 23 => ⟨S512, .f32⟩
  | _ => ⟨S50000x74, .f32⟩

abbrev hbmTy (i : Nat) : BufTy := match i / 128 with
  | 0 => hbmTy0_0 i
  | 1 => hbmTy0_1 i
  | _ => ⟨S50000x74, .f32⟩

abbrev bufTy : (tb : Table) → Fin (tcTables nBuf tb) → BufTy
  | .hbm, ⟨i, _⟩ => hbmTy i
  | _, _ => ⟨S50000x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_call3_v0 : Ref sig .tc := ⟨.hbm, 67, rfl⟩
abbrev main_call3_v1 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_13 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call5_cst : Ref sig .tc := ⟨.hbm, 103, rfl⟩
abbrev main_call5_v0 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_cst_15 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_16 : Ref sig .tc := ⟨.hbm, 112, rfl⟩
abbrev main_call6_v0 : Ref sig .tc := ⟨.hbm, 113, rfl⟩
abbrev main_call6_v1 : Ref sig .tc := ⟨.hbm, 114, rfl⟩
abbrev main_v68 : Ref sig .tc := ⟨.hbm, 115, rfl⟩
abbrev main_cst_17 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_18 : Ref sig .tc := ⟨.hbm, 127, rfl⟩
abbrev main_call7_cst : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_call7_v3 : Ref sig .tc := ⟨.hbm, 132, rfl⟩
abbrev main_call7_v4 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_19 : Ref sig .tc := ⟨.hbm, 139, rfl⟩
abbrev main_call8_cst : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x74_0_1 : S50000x1.BroadcastsInDim S50000x74 (![0, 1] : Fin 2 → Fin S50000x74.rank)
  bcast_S_S50000x74 : S_.BroadcastsInDim S50000x74 (![] : Fin 0 → Fin S50000x74.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S512 : S_.BroadcastsInDim S512 (![] : Fin 0 → Fin S512.rank)
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S50000_S800000x1_S800000_n_0_0_1_wf : ScatterDims.WF S50000 S800000x1 S800000 [] [0] [0] 1
  gather_S50000x74_S800000x1_S800000x74_1_0_n_n_0_1_174_wf : GatherDims.WF S50000x74 S800000x1 S800000x74 [1] [0] [] [0] [] 1 ![1, 74]
  scatter_S50000x74_S800000x1_S800000x74_1_0_0_1_wf : ScatterDims.WF S50000x74 S800000x1 S800000x74 [1] [0] [0] 1
  dot_S50000x74_S74x256_S50000x256_1_0_0_1_n_n_wf : DotDims.WF S50000x74 S74x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  dot_S512x256_S256x1024_S512x1024_1_0_0_1_n_n_wf : DotDims.WF S512x256 S256x1024 S512x1024 [1] [0] [0] [1] [] []
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x74_S800000x1_S800000x74_1_0_n_n_0_1_174 : GatherDims S50000x74 S800000x1 S800000x74 where
  offsetDims := [1]
  collapsedSliceDims := [0]
  operandBatchingDims := []
  startIndicesBatchingDims := []
  startIndexMap := [0]
  indexVectorDim := 1
  sliceSizes := ![1, 74]
  wf := gather_S50000x74_S800000x1_S800000x74_1_0_n_n_0_1_174_wf
def scatter_S50000x74_S800000x1_S800000x74_1_0_0_1 : ScatterDims S50000x74 S800000x1 S800000x74 where
  updateWindowDims := [1]
  insertedWindowDims := [0]
  scatterDimsToOperandDims := [0]
  indexVectorDim := 1
  wf := scatter_S50000x74_S800000x1_S800000x74_1_0_0_1_wf
def dot_S50000x74_S74x256_S50000x256_1_0_0_1_n_n : DotDims S50000x74 S74x256 S50000x256 where
  lhsContracting := [1]
  rhsContracting := [0]
  lhsNonContracting := [0]
  rhsNonContracting := [1]
  lhsBatch := []
  rhsBatch := []
  wf := dot_S50000x74_S74x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

class Facts : Prop extends Facts₀ where

variable [Facts]
-- ==== Proof.KI.Reg0.lean ====
import proofs.«414984_j37778532335670_1_alg».proof.Proof.Gen.KernelIdeal.Launch
import proofs.«414984_j37778532335670_1_alg».proof.Proof.Gen.KernelIdeal.Skeleton
import proofs.«414984_j37778532335670_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x74 := Rect.unit (s := S5000x74) ![0, 0] S5000x74.size inb_S5000x74_S5000x74_0_0
abbrev r0_1 : Rect S74x256 := Rect.unit (s := S74x256) ![0, 0] S74x256.size inb_S74x256_S74x256_0_0
abbrev r0_2 : Rect S1x256 := Rect.unit (s := S1x256) ![0, 0] S1x256.size inb_S1x256_S1x256_0_0
abbrev r0_3 : Rect S5000x256 := Rect.unit (s := S5000x256) ![0, 0] S5000x256.size inb_S5000x256_S5000x256_0_0

def out0_3 (x0 : Vec F S5000x74 .f32) (x1 : Vec F S74x256 .f32) (x2 : Vec F S1x256 .f32) : Vec F S5000x256 .f32 :=
  View.canon [⟨r0_3, k0_pay1 (View.ld x0 r0_0) (View.ld x1 r0_1) (View.ld x2 r0_2)⟩]

theorem cover0_3 (p0 : Vec F S5000x256 .f32) (y : S5000x256.Idx) :
    ∃ pc ∈ ([⟨r0_3, p0⟩] : List (View.Piece (Elt F) S5000x256 .f32)), y ∈ pc.1.set :=
  View.cover_of_tiled [⟨r0_3, p0⟩] S5000x256.size (by rfl) y

set_option maxHeartbeats 1000000 in

theorem sound_kernel0 (c : Dev nD) (E : Set ℕ) (i : grid0.Coords) (arg1 : Memref sig .tc .vmem S5000x74 .f32) (harg1 : arg1.IsWhole) (arg2 : Memref sig .tc .vmem S74x256 .f32) (harg2 : arg2.IsWhole) (arg3 : Memref sig .tc .vmem S1x256 .f32) (harg3 : arg3.IsWhole) (arg4 : Memref sig .tc .vmem S5000x256 .f32) (harg4 : arg4.IsWhole)
    (x0 : Vec F S5000x74 .f32) (x1 : Vec F S74x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gc_mm_relu_kernel i arg1 harg1 arg2 harg2 arg3 harg3 arg4 harg4) K := by
  simp only [cc0__gc_mm_relu_kernel_eq_skeleton]; unfold cc0__gc_mm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The graph-convolution kernel of this region (a row block of features times the weight, plus the bias row, then relu), as the
  pipeline runs it: the frame half of its region at a parameter V, the contents of the core's buffers when the region
  is entered.

  The body loads its three input blocks whole, computes one [5000,256] value from them and stores it whole into the
  output's buffer. So after the body each input's buffer holds its block as found, and the output's buffer holds that
  value of the three blocks, whatever it held before. The feature block is fetched at every grid point; the weight and
  the bias row are whole arrays fetched at the first point only, and at the later points their buffers still hold them,
  since their block index never moves.
-/
import proofs.«414984_j37778532335670_1_alg».proof.Proof.Gen.KernelIdeal.Launch
import proofs.«414984_j37778532335670_1_alg».proof.Proof.Gen.KernelIdeal.Skeleton
import proofs.«414984_j37778532335670_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current buffer holds its block at every point, for any proof data whose array is `V`'s and
    whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's current buffer holds the weight at every point: fetched at the first point, and at a later
    point the block index has not moved, so the buffer still holds what the body left, which is the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's window likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer's whole rectangle -/

abbrev r1_0 : Rect S5000x256 := Rect.unit (s := S5000x256) ![0, 0] S5000x256.size inb_S5000x256_S5000x256_0_0
abbrev r1_1 : Rect S256x256 := Rect.unit (s := S256x256) ![0, 0] S256x256.size inb_S256x256_S256x256_0_0
abbrev r1_2 : Rect S1x256 := Rect.unit (s := S1x256) ![0, 0] S1x256.size inb_S1x256_S1x256_0_0
abbrev r1_3 : Rect S5000x256 := Rect.unit (s := S5000x256) ![0, 0] S5000x256.size inb_S5000x256_S5000x256_0_0

/-! ## What the body leaves in the output window's buffer -/

/-- The output's buffer after the body, from the three input blocks: one whole store of the kernel's value. -/
def out1_3 (x0 : Vec F S5000x256 .f32) (x1 : Vec F S256x256 .f32) (x2 : Vec F S1x256 .f32) : Vec F S5000x256 .f32 :=
  View.canon [⟨r1_3, k1_pay1 (View.ld x0 r1_0) (View.ld x1 r1_1) (View.ld x2 r1_2)⟩]

/-- The one store is of the whole rectangle, so it covers the buffer. -/
theorem cover1_3 (p0 : Vec F S5000x256 .f32) (y : S5000x256.Idx) :
    ∃ pc ∈ ([⟨r1_3, p0⟩] : List (View.Piece (Elt F) S5000x256 .f32)), y ∈ pc.1.set :=
  View.cover_of_tiled [⟨r1_3, p0⟩] S5000x256.size (by rfl) y

/-! ## The body's triple -/

set_option maxHeartbeats 1000000 in
/-- The kernel body on whole buffers, the inputs' at read contents `x0`, `x1`, `x2` and the output's at anything, runs to
    the continuation holding the inputs' as they were and the output's at `out1_3` of them: three loads of the inputs, a
    load of the output's buffer whose value is not used, and one whole store. -/
theorem sound_kernel1 (c : Dev nD) (E : Set ℕ) (i : grid1.Coords) (arg1 : Memref sig .tc .vmem S5000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S5000x256 .f32) (harg4 : arg4.IsWhole)
    (x0 : Vec F S5000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gc_mm_relu_kernel i arg1 harg1 arg2 harg2 arg3 harg3 arg4 harg4) K := by
  simp only [cc1__gc_mm_relu_kernel_eq_skeleton]; unfold cc1__gc_mm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point `t`
    each input's buffer at its block and the output's at `out1_3` of the input blocks; the invariant that of a body
    touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«414984_j37778532335670_1_alg».proof.Proof.Gen.KernelIdeal.Launch
import proofs.«414984_j37778532335670_1_alg».proof.Proof.Gen.KernelIdeal.Skeleton
import proofs.«414984_j37778532335670_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

abbrev rAcc : Rect S512x256 := Rect.unit (s := S512x256) ![0, 0] S512x256.size inb_S512x256_S512x256_0_0
abbrev rOut : Rect S512x1 := Rect.unit (s := S512x1) ![0, 0] S512x1.size inb_S512x1_S512x1_0_0

def zero2 : Vec F S512x256 .f32 :=
  View.canon [⟨rAcc, k2_pay1 (F := F)⟩]

def acc2 (x0 : Vec F S5000x256 .f32) (x1 : Vec F S5000x1 .i32) (s : Vec F S512x256 .f32) : Vec F S512x256 .f32 :=
  View.canon [⟨rAcc, k2_pay2 x1 x0 s⟩]

def out2 (a : Vec F S512x256 .f32) (x2 : Vec F S512x1 .f32) (x3 : Vec F S256x1024 .f32) (x4 : Vec F S1x1024 .f32)
    (x5 : Vec F S1024x512 .f32) (x6 : Vec F S1x512 .f32) (x7 : Vec F S512x1 .f32) (x8 : Vec F S1x1 .f32) : Vec F S512x1 .f32 :=
  View.canon [⟨rOut, k2_pay3 (k2_pay4 a x2 x3 x4 x5 x6 x7) (k2_pay5 x8)⟩]

abbrev cond2_0 (i : grid2.Coords) : Prop :=
  (Scalar.cmpi .ne (Scalar.extui (Scalar.cmpi .eq (BitVec.ofNat 32 (i 0).val) 0#32)) 0#32) = 1#1

theorem cond2_0_iff (i : grid2.Coords) : cond2_0 i ↔ (i 0).val = 0 :=
  (by decide : ∀ n : Fin 10, ((Scalar.cmpi .ne (Scalar.extui (Scalar.cmpi .eq (BitVec.ofNat 32 n.val) 0#32)) 0#32) = 1#1) ↔ n.val = 0) (i 0)

theorem k2_cond2_iff (i : grid2.Coords) : k2_cond2 i = 1#1 ↔ (i 0).val = 9 :=
  (by decide : ∀ n : Fin 10, ((Scalar.cmpi .ne (Scalar.extui (Scalar.cmpi .eq (BitVec.ofNat 32 n.val) 9#32)) 0#32) = 1#1) ↔ n.val = 9) (i 0)

theorem zeros2 : (![0, 0] : Fin 2 → ℕ) = fun _ => 0 := funext fun a => by fin_cases a <;> rfl

theorem readAt_unit_zero {κ : Kind} {sp : Space} {S : Shape} {e : EltTy} (v : View sig κ sp S e) {off : Fin S.rank → ℕ}
    (h : off = fun _ => 0) (inb : ∀ a, off a + S.size a ≤ S.size a) (f : v.ty.Contents (Elt F)) :
    View.readAt (Elt F) v (Rect.unit off S.size inb).toLoadRect f = View.read (Elt F) v f :=
  View.ld_unit_zero h inb _

theorem cover_unit_zero {S : Shape} {e : EltTy} {off : Fin S.rank → ℕ} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

variable (c : Dev nD) (E : Set ℕ) (i : grid2.Coords) (arg1 : Memref sig .tc .vmem S5000x256 .f32) (harg1 : arg1.IsWhole) (arg2 : Memref sig .tc .vmem S5000x1 .i32) (harg2 : arg2.IsWhole) (arg3 : Memref sig .tc .vmem S512x1 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x256 .f32) (harg11 : arg11.IsWhole)
  (x0 : Vec F S5000x256 .f32) (x1 : Vec F S5000x1 .i32) (x2 : Vec F S512x1 .f32) (x3 : Vec F S256x1024 .f32) (x4 : Vec F S1x1024 .f32) (x5 : Vec F S1024x512 .f32) (x6 : Vec F S1x512 .f32) (x7 : Vec F S512x1 .f32) (x8 : Vec F S1x1 .f32)

set_option maxHeartbeats 1000000 in
theorem run2_first (hi : (i 0).val = 0) (o : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ (∃ s, owns (c : Thread nD τ) arg11 fullShare s)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare (acc2 x0 x1 (zero2 (F := F)))) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11) K := by
  have hc0 : cond2_0 i := (cond2_0_iff i).mpr hi
  have hc1 : ¬(k2_cond2 i = 1#1) := fun h => by have := (k2_cond2_iff i).mp h; omega
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%s, %fs, -, HS⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact HS
  ipureintro
  sl_unfold_words
  rw [View.read_writes_eq_canon _ _ _ (cover_unit_zero zeros2 _ _ _)]
  rw [View.canon_cons_unit_zero (S := S512x256) zeros2]
  rw [readAt_unit_zero arg2.view zeros2, readAt_unit_zero arg1.view zeros2, View.readCov_unit_zero (S := S512x256) _ zeros2]
  unfold acc2 zero2
  rw [View.canon_unit_zero (S := S512x256) zeros2, View.canon_unit_zero (S := S512x256) zeros2]

set_option maxHeartbeats 1000000 in
theorem run2_mid (hi0 : (i 0).val ≠ 0) (hi9 : (i 0).val ≠ 9) (o : Vec F S512x1 .f32) (s : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare (acc2 x0 x1 s)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11) K := by
  have hc0 : ¬cond2_0 i := fun h => hi0 ((cond2_0_iff i).mp h)
  have hc1 : ¬(k2_cond2 i = 1#1) := fun h => hi9 ((k2_cond2_iff i).mp h)
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact HS
  ipureintro
  rw [View.read_writes_eq_canon _ _ _ (cover_unit_zero zeros2 _ _ _)]
  rw [readAt_unit_zero arg2.view zeros2, readAt_unit_zero arg1.view zeros2, readAt_unit_zero arg11.view zeros2]
  rfl

set_option maxHeartbeats 1000000 in
theorem run2_last (hi9 : (i 0).val = 9) (s : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ o, owns (c : Thread nD τ) arg10 fullShare o) ∗ owns (c : Thread nD τ) arg11 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2 (acc2 x0 x1 s) x2 x3 x4 x5 x6 x7 x8) ∗ owns (c : Thread nD τ) arg11 fullShare (acc2 x0 x1 s)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11) K := by
  have hc0 : ¬cond2_0 i := fun h => by have := (cond2_0_iff i).mp h; omega
  have hc1 : k2_cond2 i = 1#1 := (k2_cond2_iff i).mpr hi9
  simp only [cc2__pool_mlp_kernel_eq_skeleton]; unfold cc2__pool_mlp_kernel_skel
  rw [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%o, %f9, -, H9⟩, ⟨%fs, %hfs, HS⟩, Hk⟩
  subst hf0; subst hf1; subst hf2; subst hf3; subst hf4; subst hf5; subst hf6; subst hf7; subst hf8; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (cover_unit_zero zeros2 _ _ _)]
    rw [View.readCov_unit_zero (S := S512x256) _ zeros2]
    rw [readAt_unit_zero arg2.view zeros2, readAt_unit_zero arg1.view zeros2, readAt_unit_zero arg11.view zeros2,
      readAt_unit_zero arg3.view zeros2, readAt_unit_zero arg4.view zeros2, readAt_unit_zero arg5.view zeros2,
      readAt_unit_zero arg6.view zeros2, readAt_unit_zero arg7.view zeros2, readAt_unit_zero arg8.view zeros2,
      readAt_unit_zero arg9.view zeros2]
    unfold out2 acc2
    rw [View.canon_unit_zero (S := S512x256) zeros2]
  iexists _; isplitr
  swap; · iexact HS
  ipureintro
  sl_unfold_words
  rw [View.read_writes_eq_canon _ _ _ (cover_unit_zero zeros2 _ _ _)]
  rw [readAt_unit_zero arg2.view zeros2, readAt_unit_zero arg1.view zeros2, readAt_unit_zero arg11.view zeros2]
  rfl

end Cert.KernelIdeal.Hand

end
-- ==== Proof.KI.Reg2.lean ====
import proofs.«414984_j37778532335670_1_alg».proof.Proof.KI.Reg2Runs
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S512x256 .f32
  | 0, h => acc2 (iblk2 V c 0 ⟨0, h⟩) (iblk2 V c 1 ⟨0, h⟩) zero2
  | n + 1, h => acc2 (iblk2 V c 0 ⟨n + 1, h⟩) (iblk2 V c 1 ⟨n + 1, h⟩) (accAt2 c n (Nat.lt_of_succ_lt h))

def outAt2 (c : Dev nD) (t : Fin cfg2.N) : Vec F S512x1 .f32 :=
  out2 (accAt2 V c t.val t.isLt) (iblk2 V c 2 t) (iblk2 V c 3 t) (iblk2 V c 4 t) (iblk2 V c 5 t) (iblk2 V c 6 t) (iblk2 V c 7 t) (iblk2 V c 8 t)

theorem accAt2_zero (c : Dev nD) (h : 0 < cfg2.N) :
    accAt2 V c 0 h = acc2 (iblk2 V c 0 ⟨0, h⟩) (iblk2 V c 1 ⟨0, h⟩) zero2 := rfl

theorem accAt2_succ (c : Dev nD) (n : ℕ) (h : n + 1 < cfg2.N) :
    accAt2 V c (n + 1) h = acc2 (iblk2 V c 0 ⟨n + 1, h⟩) (iblk2 V c 1 ⟨n + 1, h⟩) (accAt2 V c n (Nat.lt_of_succ_lt h)) := rfl

theorem accAt2_first (c : Dev nD) (t : Fin cfg2.N) (hz : t.val = 0) :
    accAt2 V c t.val t.isLt = acc2 (iblk2 V c 0 t) (iblk2 V c 1 t) zero2 := by
  obtain ⟨n, hn⟩ := t
  cases n with
  | zero => rfl
  | succ n => exact absurd hz (Nat.succ_ne_zero n)

theorem accAt2_pos (c : Dev nD) (t : Fin cfg2.N) (hz : t.val ≠ 0) :
    accAt2 V c t.val t.isLt = acc2 (iblk2 V c 0 t) (iblk2 V c 1 t) (accAt2 V c (t.val - 1) (Nat.lt_of_le_of_lt (Nat.sub_le _ _) t.isLt)) := by
  obtain ⟨n, hn⟩ := t
  cases n with
  | zero => exact absurd rfl hz
  | succ n => rfl

abbrev scM2 : Memref sig .tc .vmem S512x256 .f32 := Memref.whole cc2_scratch0

def scoped2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S)

theorem scoped2_acc (c : Dev nD) (S S' : sProp 𝕄) : scoped2 (F := F) c S ⊢ iprop(S ∗ (S' -∗ scoped2 (F := F) c S')) := by
  unfold scoped2
  iintro ⟨R1, R2, R3, R4, R5, R6, R7, R8, R9, R10, R11, R12, HS⟩
  isplitl [HS]; · iexact HS
  iintro HS'
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact HS'

theorem scoped2_mono (c : Dev nD) {S S' : sProp 𝕄} (h : S ⊢ S') : scoped2 (F := F) c S ⊢ scoped2 (F := F) c S' := by
  iintro H
  ihave H' := (scoped2_acc c S S') $$ H
  icases H' with ⟨HS, Hw⟩
  iapply Hw
  iapply h
  iexact HS

theorem scoped2_forget (c : Dev nD) (s : Vec F S512x256 .f32) :
    scoped2 (F := F) c (owns (c : Thread nD τ) scM2 fullShare s) ⊢ scoped2 (F := F) c (iprop(∃ d, owns (c : Thread nD τ) scM2 fullShare d)) :=
  scoped2_mono c (by iintro H; iexists _; iexact H)

theorem PhiA2_eq (c : Dev nD) :
    (Pipeline.ΦA spec2 c : sProp 𝕄) = iprop(scoped2 c (iprop(∃ d, owns (c : Thread nD τ) scM2 fullShare d)) ∗ (∃ r, prngReg c r)) := by
  unfold Pipeline.ΦA scoped2; rw [scopedRest2_eq]; simp only [scM2, owns_whole]; try rfl

def PhiS2 (c : Dev nD) : (n : ℕ) → n ≤ cfg2.N → sProp 𝕄
  | 0, _ => Pipeline.ΦA spec2 c
  | n + 1, hn => iprop(scoped2 c (owns (c : Thread nD τ) scM2 fullShare (accAt2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 c (owns (c : Thread nD τ) scM2 fullShare (accAt2 V c n hn)) ∗ (∃ r, prngReg c r)) := rfl

theorem PhiS2_pos (c : Dev nD) (n : ℕ) (h : n ≤ cfg2.N) (hz : n ≠ 0) :
    PhiS2 V c n h = iprop(scoped2 c (owns (c : Thread nD τ) scM2 fullShare (accAt2 V c (n - 1) (by omega))) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = outAt2 V c t := by dsimp only [dat2]

theorem coord2_val : ∀ t : Fin cfg2.N, ((grid2.coords t) 0).val = t.val := by decide +kernel

theorem idleAt2_9 : ∀ t : Fin cfg2.N, t.val ≠ 9 → cfg2.idle 9 (grid2.coords t) = true := by decide +kernel

theorem liveAt2_9 : ∀ t : Fin cfg2.N, t.val = 9 → cfg2.idle 9 (grid2.coords t) = false := by decide +kernel

theorem noFlush2_9 (t : Fin cfg2.N) (h : t.val ≠ 9) : (cfg2.win 9).flush t = false :=
  Bool.eq_false_iff.mpr fun hf => h (by have := (flush2_9 t).mp hf; have hN : t.val < 10 := lt_of_lt_of_eq t.isLt (show cfg2.N = 10 from N_2); omega)

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d))
    ∗ (∃ d, owns (c : Thread nD τ) (win2_6.stage (cfg2.slots t 6)) fullShare ((dat2 V c).before 6 t d))
    ∗ (∃ d, owns (c : Thread nD τ) (win2_7.stage (cfg2.slots t 7)) fullShare ((dat2 V c).before 7 t d))
    ∗ (∃ d, owns (c : Thread nD τ) (win2_8.stage (cfg2.slots t 8)) fullShare ((dat2 V c).before 8 t d))
    ∗ (∃ d, owns (c : Thread nD τ) (win2_9.stage (cfg2.slots t 9)) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (win2_0.stage (cfg2.slots t 0)) fullShare ((dat2 V c).after 0 t) from by
      unfold Dat.leavesExact; rw [liveAt2_0 t], after2_0]
  rw [show (dat2 V c).leavesExact 1 t = owns (c : Thread nD τ) (win2_1.stage (cfg2.slots t 1)) fullShare ((dat2 V c).after 1 t) from by
      unfold Dat.leavesExact; rw [liveAt2_1 t], after2_1]
  rw [show (dat2 V c).leavesExact 2 t = owns (c : Thread nD τ) (win2_2.stage (cfg2.slots t 2)) fullShare ((dat2 V c).after 2 t) from by
      unfold Dat.leavesExact; rw [liveAt2_2 t], after2_2]
  rw [show (dat2 V c).leavesExact 3 t = owns (c : Thread nD τ) (win2_3.stage (cfg2.slots t 3)) fullShare ((dat2 V c).after 3 t) from by
      unfold Dat.leavesExact; rw [liveAt2_3 t], after2_3]
  rw [show (dat2 V c).leavesExact 4 t = owns (c : Thread nD τ) (win2_4.stage (cfg2.slots t 4)) fullShare ((dat2 V c).after 4 t) from by
      unfold Dat.leavesExact; rw [liveAt2_4 t], after2_4]
  rw [show (dat2 V c).leavesExact 5 t = owns (c : Thread nD τ) (win2_5.stage (cfg2.slots t 5)) fullShare ((dat2 V c).after 5 t) from by
      unfold Dat.leavesExact; rw [liveAt2_5 t], after2_5]
  rw [show (dat2 V c).leavesExact 6 t = owns (c : Thread nD τ) (win2_6.stage (cfg2.slots t 6)) fullShare ((dat2 V c).after 6 t) from by
      unfold Dat.leavesExact; rw [liveAt2_6 t], after2_6]
  rw [show (dat2 V c).leavesExact 7 t = owns (c : Thread nD τ) (win2_7.stage (cfg2.slots t 7)) fullShare ((dat2 V c).after 7 t) from by
      unfold Dat.leavesExact; rw [liveAt2_7 t], after2_7]
  rw [show (dat2 V c).leavesExact 8 t = owns (c : Thread nD τ) (win2_8.stage (cfg2.slots t 8)) fullShare ((dat2 V c).after 8 t) from by
      unfold Dat.leavesExact; rw [liveAt2_8 t], after2_8]
  have hN : t.val < 10 := lt_of_lt_of_eq t.isLt (show cfg2.N = 10 from N_2)
  have hc : ((grid2.coords t) 0).val = t.val := coord2_val t
  by_cases hz : t.val = 0
  · rw [Dat.leavesExact_idle (dat2 V c) 9 t (idleAt2_9 t (by omega)) (noFlush2_9 t (by omega))]
    rw [accAt2_first V c t hz, PhiS2_castSucc V c t, PhiS2_zero V c _ _ hz, PhiA2_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS' := (scoped2_acc c _ (owns (c : Thread nD τ) scM2 fullShare (acc2 (iblk2 V c 0 t) (iblk2 V c 1 t) zero2))) $$ HS
    icases HS' with ⟨HS, Hback⟩
    iapply (run2_first c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (hc.trans hz) ((dat2 V c).before 9 t d9) _)
    iframe H0 H1 H2 H3 H4 H5 H6 H7 H8 H9 HS
    iintro ⟨H0, H1, H2, H3, H4, H5, H6, H7, H8, H9, HS⟩
    isplitl [HS Hback Hg]
    · isplitl [HS Hback]
      · iapply Hback; iexact HS
      iexact Hg
    iframe Ho H0 H1 H2 H3 H4 H5 H6 H7 H8
    iexists _; iexact H9
  by_cases h9 : t.val = 9
  · rw [show (dat2 V c).leavesExact 9 t = owns (c : Thread nD τ) (win2_9.stage (cfg2.slots t 9)) fullShare ((dat2 V c).after 9 t) from by
      unfold Dat.leavesExact; rw [liveAt2_9 t h9], after2_9]
    unfold outAt2
    rw [accAt2_pos V c t hz, PhiS2_castSucc V c t, PhiS2_pos V c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS' := (scoped2_acc c _ (owns (c : Thread nD τ) scM2 fullShare (acc2 (iblk2 V c 0 t) (iblk2 V c 1 t) (accAt2 V c (t.val - 1) (Nat.lt_of_le_of_lt (Nat.sub_le _ _) t.isLt))))) $$ HS
    icases HS' with ⟨HS, Hback⟩
    iapply (run2_last c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (hc.trans h9) (accAt2 V c (t.val - 1) (Nat.lt_of_le_of_lt (Nat.sub_le _ _) t.isLt)) _)
    iframe H0 H1 H2 H3 H4 H5 H6 H7 H8 HS
    isplitl [H9]; · iexists _; iexact H9
    iintro ⟨H0, H1, H2, H3, H4, H5, H6, H7, H8, H9, HS⟩
    isplitl [HS Hback Hg]
    · isplitl [HS Hback]
      · iapply Hback; iexact HS
      iexact Hg
    iframe
  · rw [Dat.leavesExact_idle (dat2 V c) 9 t (idleAt2_9 t h9) (noFlush2_9 t h9)]
    rw [accAt2_pos V c t hz, PhiS2_castSucc V c t, PhiS2_pos V c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS' := (scoped2_acc c _ (owns (c : Thread nD τ) scM2 fullShare (acc2 (iblk2 V c 0 t) (iblk2 V c 1 t) (accAt2 V c (t.val - 1) (Nat.lt_of_le_of_lt (Nat.sub_le _ _) t.isLt))))) $$ HS
    icases HS' with ⟨HS, Hback⟩
    iapply (run2_mid c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (fun h => hz (hc.symm.trans h)) (fun h => h9 (hc.symm.trans h)) ((dat2 V c).before 9 t d9) (accAt2 V c (t.val - 1) (Nat.lt_of_le_of_lt (Nat.sub_le _ _) t.isLt)) _)
    iframe H0 H1 H2 H3 H4 H5 H6 H7 H8 H9 HS
    iintro ⟨H0, H1, H2, H3, H4, H5, H6, H7, H8, H9, HS⟩
    isplitl [HS Hback Hg]
    · isplitl [HS Hback]
      · iapply Hback; iexact HS
      iexact Hg
    iframe Ho H0 H1 H2 H3 H4 H5 H6 H7 H8
    iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨HS, Hg⟩
  isplitl [HS]
  · iapply (scoped2_forget c _)
    iexact HS
  iexact Hg

end Cert.KernelIdeal.Hand

end
-- ==== Proof.KI.Frame.lean ====
import proofs.«414984_j37778532335670_1_alg».proof.Proof.Gen.KernelIdeal.Launch
import proofs.«414984_j37778532335670_1_alg».proof.Proof.Gen.KernelIdeal.Skeleton
import proofs.«414984_j37778532335670_1_alg».proof.Proof.Gen.KernelIdeal.Points
import proofs.«414984_j37778532335670_1_alg».proof.Proof.Gen.KernelIdeal.Regions
import proofs.«414984_j37778532335670_1_alg».proof.Proof.KI.Reg0
import proofs.«414984_j37778532335670_1_alg».proof.Proof.KI.Reg1
import proofs.«414984_j37778532335670_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E5 : (c : Dev nD) → (b : Ref sig .tc) → Buf (Elt F) ((c : Thread nD τ).loc b) := fun c b => Gen.V5 m c b

def W6 (c : Dev nD) : Valuation τ sig (Elt F) :=
  Pipeline.withArrays spec0 c (Gen.V5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w

def outsA : Gen.Outs (F := F) := fun J r c =>
  match J with
  | 6 => W6 m c r
  | _ => m ((c : Thread nD τ).loc r)

abbrev E7 : (c : Dev nD) → (b : Ref sig .tc) → Buf (Elt F) ((c : Thread nD τ).loc b) := fun c b => Gen.V7 m (outsA m) c b

def W8 (c : Dev nD) : Valuation τ sig (Elt F) :=
  Pipeline.withArrays spec1 c (Gen.V7 m (outsA m) c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w

def outsB : Gen.Outs (F := F) := fun J r c =>
  match J with
  | 6 => W6 m c r
  | 8 => W8 m c r
  | _ => m ((c : Thread nD τ).loc r)

abbrev E11 : (c : Dev nD) → (b : Ref sig .tc) → Buf (Elt F) ((c : Thread nD τ).loc b) := fun c b => Gen.V11 m (outsB m) c b

def W12 (c : Dev nD) : Valuation τ sig (Elt F) :=
  Pipeline.withArrays spec2 c (Gen.V11 m (outsB m) c) fun w => (dat2 (E11 m) c).arrAt w cfg2.N
theorem W12_arr (c : Dev nD) (w : Fin cfg2.W) :
    W12 m c (Proc.devRef .tc (Pipeline.arrRef spec2 w)) = (dat2 (E11 m) c).arrAt w cfg2.N := by
  unfold W12; exact Pipeline.withArrays_arr spec2 launch2.win.arr_inj c _ _ w

def outs : Gen.Outs (F := F) := fun J r c =>
  match J with
  | 6 => W6 m c r
  | 8 => W8 m c r
  | 12 => W12 m c r
  | _ => m ((c : Thread nD τ).loc r)

theorem outs6_eq (c : Dev nD) : outs m 6 main_v28 c = (dat0 (E5 m) c).arrAt 3 cfg0.N := W6_arr m c 3
theorem outs8_eq (c : Dev nD) : outs m 8 main_v46 c = (dat1 (E7 m) c).arrAt 3 cfg1.N := W8_arr m c 3
theorem outs12_eq (c : Dev nD) : outs m 12 main_v57 c = (dat2 (E11 m) c).arrAt 9 cfg2.N := W12_arr m c 9

theorem V7_outs (c : Dev nD) : Gen.V7 m (outs m) c = Gen.V7 m (outsA m) c := rfl
theorem V11_outs (c : Dev nD) : Gen.V11 m (outs m) c = Gen.V11 m (outsB m) c := rfl

abbrev X6 : (c : Dev nD) → (b : Ref sig .tc) → Buf (Elt F) ((c : Thread nD τ).loc b) := fun c b => Gen.V6 m (outs m) c b
abbrev X8 : (c : Dev nD) → (b : Ref sig .tc) → Buf (Elt F) ((c : Thread nD τ).loc b) := fun c b => Gen.V8 m (outs m) c b
abbrev X12 : (c : Dev nD) → (b : Ref sig .tc) → Buf (Elt F) ((c : Thread nD τ).loc b) := fun c b => Gen.V12 m (outs m) c b

theorem X6_in (c : Dev nD) (b : Ref sig .tc) (h : b ∉ ([main_v28] : List (Ref sig .tc))) : X6 m c b = E5 m c b :=
  Gen.V6_of m (outs m) c b h
theorem X8_in (c : Dev nD) (b : Ref sig .tc) (h : b ∉ ([main_v46] : List (Ref sig .tc))) : X8 m c b = E7 m c b :=
  (Gen.V8_of m (outs m) c b h).trans (congrFun (V7_outs m c) _)
theorem X12_in (c : Dev nD) (b : Ref sig .tc) (h : b ∉ ([main_v57] : List (Ref sig .tc))) : X12 m c b = E11 m c b :=
  (Gen.V12_of m (outs m) c b h).trans (congrFun (V11_outs m c) _)

theorem X6_out (c : Dev nD) : X6 m c main_v28 = outs m 6 main_v28 c :=
  Function.update_self (β := fun b : DevRef τ sig => b.ty.Contents (Elt F)) (Proc.devRef .tc main_v28) (outs m 6 main_v28 c) (Gen.V5 m c)
theorem X8_out (c : Dev nD) : X8 m c main_v46 = outs m 8 main_v46 c :=
  Function.update_self (β := fun b : DevRef τ sig => b.ty.Contents (Elt F)) (Proc.devRef .tc main_v46) (outs m 8 main_v46 c) (Gen.V7 m (outs m) c)
theorem X12_out (c : Dev nD) : X12 m c main_v57 = outs m 12 main_v57 c :=
  Function.update_self (β := fun b : DevRef τ sig => b.ty.Contents (Elt F)) (Proc.devRef .tc main_v57) (outs m 12 main_v57 c) (Gen.V11 m (outs m) c)

theorem hF0 (c : Dev nD) : ∀ w : Fin cfg0.W, (dat0 (E5 m) c).arrAt w cfg0.N = X6 m c (Pipeline.arrRef spec0 w)
  | ⟨0, _⟩ => ((dat0 (E5 m) c).arrAt_in 0 rfl _).trans ((A_eq0 (E5 m) c 0).trans (X6_in m c (Pipeline.arrRef spec0 0) (by decide)).symm)
  | ⟨1, _⟩ => ((dat0 (E5 m) c).arrAt_in 1 rfl _).trans ((A_eq0 (E5 m) c 1).trans (X6_in m c (Pipeline.arrRef spec0 1) (by decide)).symm)
  | ⟨2, _⟩ => ((dat0 (E5 m) c).arrAt_in 2 rfl _).trans ((A_eq0 (E5 m) c 2).trans (X6_in m c (Pipeline.arrRef spec0 2) (by decide)).symm)
  | ⟨3, _⟩ => (outs6_eq m c).symm.trans (X6_out m c).symm
theorem hrest0 (c : Dev nD) : ∀ b, b ∉ Finset.univ.image (Pipeline.arrRef spec0) → X6 m c b = E5 m c b :=
  fun b hb => X6_in m c b fun h =>
    hb (Finset.mem_image.mpr ⟨3, Finset.mem_univ _, (List.mem_singleton.mp h).symm⟩)

theorem hF1 (c : Dev nD) : ∀ w : Fin cfg1.W, (dat1 (E7 m) c).arrAt w cfg1.N = X8 m c (Pipeline.arrRef spec1 w)
  | ⟨0, _⟩ => ((dat1 (E7 m) c).arrAt_in 0 rfl _).trans ((A_eq1 (E7 m) c 0).trans (X8_in m c (Pipeline.arrRef spec1 0) (by decide)).symm)
  | ⟨1, _⟩ => ((dat1 (E7 m) c).arrAt_in 1 rfl _).trans ((A_eq1 (E7 m) c 1).trans (X8_in m c (Pipeline.arrRef spec1 1) (by decide)).symm)
  | ⟨2, _⟩ => ((dat1 (E7 m) c).arrAt_in 2 rfl _).trans ((A_eq1 (E7 m) c 2).trans (X8_in m c (Pipeline.arrRef spec1 2) (by decide)).symm)
  | ⟨3, _⟩ => (outs8_eq m c).symm.trans (X8_out m c).symm
theorem hrest1 (c : Dev nD) : ∀ b, b ∉ Finset.univ.image (Pipeline.arrRef spec1) → X8 m c b = E7 m c b :=
  fun b hb => X8_in m c b fun h =>
    hb (Finset.mem_image.mpr ⟨3, Finset.mem_univ _, (List.mem_singleton.mp h).symm⟩)

theorem hF2_in (c : Dev nD) (w : Fin cfg2.W) (hin : (cfg2.win w).isOut = false) (h : Pipeline.arrRef spec2 w ∉ ([main_v57] : List (Ref sig .tc))) :
    (dat2 (E11 m) c).arrAt w cfg2.N = X12 m c (Pipeline.arrRef spec2 w) :=
  ((dat2 (E11 m) c).arrAt_in w hin _).trans ((A_eq2 (E11 m) c w).trans (X12_in m c (Pipeline.arrRef spec2 w) h).symm)

theorem win2_in : ∀ w : Fin cfg2.W, w ≠ 9 → ((cfg2.win w).isOut = false ∧ Pipeline.arrRef spec2 w ∉ ([main_v57] : List (Ref sig .tc))) := by
  decide
theorem hF2 (c : Dev nD) (w : Fin cfg2.W) : (dat2 (E11 m) c).arrAt w cfg2.N = X12 m c (Pipeline.arrRef spec2 w) := by
  by_cases h : w = 9
  · subst h; exact (outs12_eq m c).symm.trans (X12_out m c).symm
  · exact hF2_in m c w (win2_in w h).1 (win2_in w h).2
theorem hrest2 (c : Dev nD) : ∀ b, b ∉ Finset.univ.image (Pipeline.arrRef spec2) → X12 m c b = E11 m c b :=
  fun b hb => X12_in m c b fun h =>
    hb (Finset.mem_image.mpr ⟨9, Finset.mem_univ _, (List.mem_singleton.mp h).symm⟩)

def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E11 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E5 m c) (X6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ L lv 2 fun _ _ => rfl
  pre c := iprop(StableHlo.held (c : Thread nD τ) (Pipeline.ucRefs τ sig) (Gen.V11 m (outsB m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E11 m) c)
    unfold Pipeline.ΦA
    iintro ⟨Hp, -, Hr⟩
    isplitl [Hr]; · iexact Hr
    iexact Hp
  hout c := by
    rw [Pipeline.ownSems0_none]
    refine BIBase.Entails.trans (hout2 (E11 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E11 m c) (X12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev Es : Fin 4 → Dev nD → sProp 𝕄 := fun _ c => R c

theorem hpre1 (c : Dev nD) : iprop(StableHlo.held (c : Thread nD τ) (Pipeline.ucRefs τ sig) (Gen.V7 m (outs m) c) ∗ Es 1 c) ⊢ (reg1 m).pre c := by
  rw [V7_outs]; exact .rfl
theorem hpre2 (c : Dev nD) : iprop(StableHlo.held (c : Thread nD τ) (Pipeline.ucRefs τ sig) (Gen.V11 m (outs m) c) ∗ Es 2 c) ⊢ (reg2 m).pre c := by
  rw [V11_outs]; exact .rfl

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : Es (F := F) 3 c ⊢ (iprop(∃ W, owes (c : Thread nD τ) (0 : CellTallies nD τ sig Unit) W) : sProp 𝕄) := by
  iintro ⟨-, HO⟩; iexact HO

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ Es (hE0 ρ) hE3
    (reg0 m) (fun c => .rfl) (fun c => .rfl)
    (reg1 m) (hpre1 m) (fun c => .rfl)
    (reg2 m) (hpre2 m) (fun c => .rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V13 m (outs m) c b) := by
  refine Pipeline.θ_run_regions_kit_dev (pcfgs (F := F)) Gen.adm (pdats m) () cellOf_inj emb₁ defs₀ 𝒱₀ L lv m ρ main
    (Gen.segs m (outs m) 𝒱₀ L lv Es () (pdats m) (reg0 m) (reg1 m) (reg2 m))
    (fun c Q => by
      rewrite [main_chain c, Pipeline.Seg.run_eq_chain,
        show (Gen.segs m (outs m) 𝒱₀ L lv Es () (pdats m) (reg0 m) (reg1 m) (reg2 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ Es 0 c))
    (Tₙ := fun c => StableHlo.held (c : Thread nD τ) (Pipeline.ucRefs τ sig) (Gen.V13 m (outs m) c))
    (hch := fun c => ⟨.rfl, .rfl, .rfl, .rfl, .rfl, .rfl, .rfl, hpre1 m c, .rfl, .rfl, .rfl, hpre2 m c, .rfl, sep_mono .rfl (hE3 c)⟩)
    (hinit := ?_) (QY := fun c s => ∀ b ∈ Pipeline.ucRefs τ sig, s.mem ((c : Thread nD τ).1, b) = Gen.V13 m (outs m) c b)
    (hfin := fun c s' => ?_) (hQ := fun _ h => h)
  ·

    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    imodintro
    iapply (pointsTo_read_all (Pipeline.ucRefs τ sig) (fun b => ((c : Thread nD τ).1, b)) (Gen.V13 m (outs m) c) s')
    isplitl [Hh] <;> iassumption

end Cert.KernelIdeal.Hand

end
-- ==== Proof.RefRun.lean ====
import proofs.«414984_j37778532335670_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ nullary main_cst (constant S_ .f32 0x3F800000#32),
    unary main_cst main_v0 (broadcastInDim S800000 ![] bcast_S_S800000),
    nullary main_cst_0 (constant S_ .f32 0x00000000#32),
    unary main_cst_0 main_v1 (broadcastInDim S50000 ![] bcast_S_S50000),
    unary main_arg1 main_v2 (broadcastInDim S800000x1 ![0] bcast_S800000_S800000x1_0),
    ternary main_v1 main_v2 main_v0 main_v3 ((fun x i u => Host.scatterAdd scatter_S50000_S800000x1_S800000_n_0_0_1 x i u)),
    nullary main_cst_1 (constant S_ .f32 0x3F800000#32),
    TRef.unary (.of main_cst_1) main_call0.v0 id,
    TRef.unary main_call0.v0 main_call0.v1 (broadcastInDim S50000 ![] bcast_S_S50000),
    TRef.binary main_call0.v1 (.of main_v3) main_call0.v2 maximumf,
    nullary main_cst_2 (constant S_ .f32 0x00000000#32),
    unary main_cst_2 main_v5 (broadcastInDim S50000 ![] bcast_S_S50000),
    unary main_arg2 main_v6 (broadcastInDim S800000x1 ![0] bcast_S800000_S800000x1_0),
    ternary main_v5 main_v6 main_v0 main_v7 ((fun x i u => Host.scatterAdd scatter_S50000_S800000x1_S800000_n_0_0_1 x i u)),
    nullary main_cst_3 (constant S_ .f32 0x3F800000#32),
    TRef.unary (.of main_cst_3) main_call1.v0 id,
    TRef.unary main_call1.v0 main_call1.v1 (broadcastInDim S50000 ![] bcast_S_S50000),
    TRef.binary main_call1.v1 (.of main_v7) main_call1.v2 maximumf,
    unary main_v4 main_v9 (Host.rsqrt),
    unary main_v9 main_v10 (broadcastInDim S50000x1 ![0] bcast_S50000_S50000x1_0),
    unary main_v10 main_v11 (broadcastInDim S50000x74 ![0, 1] bcast_S50000x1_S50000x74_0_1),
    binary main_arg0 main_v11 main_v12 (mulf),
    nullary main_c (constantI S_ 32 0#32),
    unary main_c main_v13 (broadcastInDim S800000 ![] bcast_S_S800000),
    binary main_arg1 main_v13 main_v14 (cmpi .slt),
    nullary main_c_4 (constantI S_ 32 50000#32),
    unary main_c_4 main_v15 (broadcastInDim S800000 ![] bcast_S_S800000),
    binary main_arg1 main_v15 main_v16 (addi),
    ternary main_v14 main_v16 main_arg1 main_v17 (select),
    unary main_v17 main_v18 (broadcastInDim S800000x1 ![0] bcast_S800000_S800000x1_0),
    binary main_v12 main_v18 main_v19 ((fun x i => Host.gather gather_S50000x74_S800000x1_S800000x74_1_0_n_n_0_1_174 x i)),
    nullary main_cst_5 (constant S_ .f32 0x00000000#32),
    unary main_cst_5 main_v20 (broadcastInDim S50000x74 ![] bcast_S_S50000x74),
    unary main_arg2 main_v21 (broadcastInDim S800000x1 ![0] bcast_S800000_S800000x1_0),
    ternary main_v20 main_v21 main_v19 main_v22 ((fun x i u => Host.scatterAdd scatter_S50000x74_S800000x1_S800000x74_1_0_0_1 x i u)),
    unary main_v8 main_v23 (Host.rsqrt),
    unary main_v23 main_v24 (broadcastInDim S50000x1 ![0] bcast_S50000_S50000x1_0),
    unary main_v24 main_v25 (broadcastInDim S50000x74 ![0, 1] bcast_S50000x1_S50000x74_0_1),
    binary main_v22 main_v25 main_v26 (mulf),
    binary main_v26 main_arg4 main_v27 ((fun l r => Host.dotGeneral dot_S50000x74_S74x256_S50000x256_1_0_0_1_n_n none l r)),
    unary main_arg5 main_v28 (broadcastInDim S1x256 ![1] bcast_S256_S1x256_1),
    unary main_v28 main_v29 (broadcastInDim S50000x256 ![0, 1] bcast_S1x256_S50000x256_0_1),
    binary main_v27 main_v29 main_v30 (addf),
    TRef.nullary main_call2.cst (constant S_ .f32 0x00000000#32),
    TRef.unary main_call2.cst main_call2.v0 (broadcastInDim S50000x256 ![] bcast_S_S50000x256),
    TRef.binary (.of main_v30) main_call2.v0 main_call2.v1 maximumf,
    nullary main_cst_6 (constant S_ .f32 0x3F800000#32),
    unary main_cst_6 main_v32 (broadcastInDim S800000 ![] bcast_S_S800000),
    nullary main_cst_7 (constant S_ .f32 0x00000000#32),
    unary main_cst_7 main_v33 (broadcastInDim S50000 ![] bcast_S_S50000),
    unary main_arg1 main_v34 (broadcastInDim S800000x1 ![0] bcast_S800000_S800000x1_0),
    ternary main_v33 main_v34 main_v32 main_v35 ((fun x i u => Host.scatterAdd scatter_S50000_S800000x1_S800000_n_0_0_1 x i u)),
    nullary main_cst_8 (constant S_ .f32 0x3F800000#32),
    TRef.unary (.of main_cst_8) main_call3.v0 id,
    TRef.unary main_call3.v0 main_call3.v1 (broadcastInDim S50000 ![] bcast_S_S50000),
    TRef.binary main_call3.v1 (.of main_v35) main_call3.v2 maximumf,
    nullary main_cst_9 (constant S_ .f32 0x00000000#32),
    unary main_cst_9 main_v37 (broadcastInDim S50000 ![] bcast_S_S50000),
    unary main_arg2 main_v38 (broadcastInDim S800000x1 ![0] bcast_S800000_S800000x1_0),
    ternary main_v37 main_v38 main_v32 main_v39 ((fun x i u => Host.scatterAdd scatter_S50000_S800000x1_S800000_n_0_0_1 x i u)),
    nullary main_cst_10 (constant S_ .f32 0x3F800000#32),
    TRef.unary (.of main_cst_10) main_call4.v0 id,
    TRef.unary main_call4.v0 main_call4.v1 (broadcastInDim S50000 ![] bcast_S_S50000),
    TRef.binary main_call4.v1 (.of main_v39) main_call4.v2 maximumf,
    unary main_v36 main_v41 (Host.rsqrt),
    unary main_v41 main_v42 (broadcastInDim S50000x1 ![0] bcast_S50000_S50000x1_0),
    unary main_v42 main_v43 (broadcastInDim S50000x256 ![0, 1] bcast_S50000x1_S50000x256_0_1),
    binary main_v31 main_v43 main_v44 (mulf),
    nullary main_c_11 (constantI S_ 32 0#32),
    unary main_c_11 main_v45 (broadcastInDim S800000 ![] bcast_S_S800000) ]

abbrev ops_part1 : List (HloOp τ sig (Elt F)) :=
  [ binary main_arg1 main_v45 main_v46 (cmpi .slt),
    nullary main_c_12 (constantI S_ 32 50000#32),
    unary main_c_12 main_v47 (broadcastInDim S800000 ![] bcast_S_S800000),
    binary main_arg1 main_v47 main_v48 (addi),
    ternary main_v46 main_v48 main_arg1 main_v49 (select),
    unary main_v49 main_v50 (broadcastInDim S800000x1 ![0] bcast_S800000_S800000x1_0),
    binary main_v44 main_v50 main_v51 ((fun x i => Host.gather gather_S50000x256_S800000x1_S800000x256_1_0_n_n_0_1_1256 x i)),
    nullary main_cst_13 (constant S_ .f32 0x00000000#32),
    unary main_cst_13 main_v52 (broadcastInDim S50000x256 ![] bcast_S_S50000x256),
    unary main_arg2 main_v53 (broadcastInDim S800000x1 ![0] bcast_S800000_S800000x1_0),
    ternary main_v52 main_v53 main_v51 main_v54 ((fun x i u => Host.scatterAdd scatter_S50000x256_S800000x1_S800000x256_1_0_0_1 x i u)),
    unary main_v40 main_v55 (Host.rsqrt),
    unary main_v55 main_v56 (broadcastInDim S50000x1 ![0] bcast_S50000_S50000x1_0),
    unary main_v56 main_v57 (broadcastInDim S50000x256 ![0, 1] bcast_S50000x1_S50000x256_0_1),
    binary main_v54 main_v57 main_v58 (mulf),
    binary main_v58 main_arg6 main_v59 ((fun l r => Host.dotGeneral dot_S50000x256_S256x256_S50000x256_1_0_0_1_n_n none l r)),
    unary main_arg7 main_v60 (broadcastInDim S1x256 ![1] bcast_S256_S1x256_1),
    unary main_v60 main_v61 (broadcastInDim S50000x256 ![0, 1] bcast_S1x256_S50000x256_0_1),
    binary main_v59 main_v61 main_v62 (addf),
    TRef.nullary main_call5.cst (constant S_ .f32 0x00000000#32),
    TRef.unary main_call5.cst main_call5.v0 (broadcastInDim S50000x256 ![] bcast_S_S50000x256),
    TRef.binary (.of main_v62) main_call5.v0 main_call5.v1 maximumf,
    nullary main_cst_14 (constant S_ .f32 0x3F800000#32),
    unary main_cst_14 main_v64 (broadcastInDim S50000 ![] bcast_S_S50000),
    nullary main_cst_15 (constant S_ .f32 0x00000000#32),
    unary main_cst_15 main_v65 (broadcastInDim S512 ![] bcast_S_S512),
    unary main_arg3 main_v66 (broadcastInDim S50000x1 ![0] bcast_S50000_S50000x1_0),
    ternary main_v65 main_v66 main_v64 main_v67 ((fun x i u => Host.scatterAdd scatter_S512_S50000x1_S50000_n_0_0_1 x i u)),
    nullary main_cst_16 (constant S_ .f32 0x3F800000#32),
    TRef.unary (.of main_cst_16) main_call6.v0 id,
    TRef.unary main_call6.v0 main_call6.v1 (broadcastInDim S512 ![] bcast_S_S512),
    TRef.binary main_call6.v1 (.of main_v67) main_call6.v2 maximumf,
    nullary main_cst_17 (constant S_ .f32 0x00000000#32),
    unary main_cst_17 main_v69 (broadcastInDim S512x256 ![] bcast_S_S512x256),
    unary main_arg3 main_v70 (broadcastInDim S50000x1 ![0] bcast_S50000_S50000x1_0),
    ternary main_v69 main_v70 main_v63 main_v71 ((fun x i u => Host.scatterAdd scatter_S512x256_S50000x1_S50000x256_1_0_0_1 x i u)),
    unary main_v68 main_v72 (broadcastInDim S512x1 ![0] bcast_S512_S512x1_0),
    unary main_v72 main_v73 (broadcastInDim S512x256 ![0, 1] bcast_S512x1_S512x256_0_1),
    binary main_v71 main_v73 main_v74 (Host.divf),
    binary main_v74 main_arg8 main_v75 ((fun l r => Host.dotGeneral dot_S512x256_S256x1024_S512x1024_1_0_0_1_n_n none l r)),
    unary main_arg9 main_v76 (broadcastInDim S1x1024 ![1] bcast_S1024_S1x1024_1),
    unary main_v76 main_v77 (broadcastInDim S512x1024 ![0, 1] bcast_S1x1024_S512x1024_0_1),
    binary main_v75 main_v77 main_v78 (addf),
    nullary main_cst_18 (constant S_ .f32 0x3C23D70A#32),
    TRef.nullary main_call7.cst (constant S_ .f32 0x00000000#32),
    TRef.unary main_call7.cst main_call7.v0 (broadcastInDim S512x1024 ![] bcast_S_S512x1024),
    TRef.binary (.of main_v78) main_call7.v0 main_call7.v1 (cmpf .oge),
    TRef.unary (.of main_cst_18) main_call7.v2 id,
    TRef.unary main_call7.v2 main_call7.v3 (broadcastInDim S512x1024 ![] bcast_S_S512x1024),
    TRef.binary main_call7.v3 (.of main_v78) main_call7.v4 mulf,
    TRef.ternary main_call7.v1 (.of main_v78) main_call7.v4 main_call7.call0.v0 select,
    binary main_v79 main_arg10 main_v80 ((fun l r => Host.dotGeneral dot_S512x1024_S1024x512_S512x512_1_0_0_1_n_n none l r)),
    unary main_arg11 main_v81 (broadcastInDim S1x512 ![1] bcast_S512_S1x512_1),
    unary main_v81 main_v82 (broadcastInDim S512x512 ![0, 1] bcast_S1x512_S512x512_0_1),
    binary main_v80 main_v82 main_v83 (addf),
    nullary main_cst_19 (constant S_ .f32 0x3C23D70A#32),
    TRef.nullary main_call8.cst (constant S_ .f32 0x00000000#32),
    TRef.unary main_call8.cst main_call8.v0 (broadcastInDim S512x512 ![] bcast_S_S512x512),
    TRef.binary (.of main_v83) main_call8.v0 main_call8.v1 (cmpf .oge),
    TRef.unary (.of main_cst_19) main_call8.v2 id,
    TRef.unary main_call8.v2 main_call8.v3 (broadcastInDim S512x512 ![] bcast_S_S512x512),
    TRef.binary main_call8.v3 (.of main_v83) main_call8.v4 mulf,
    TRef.ternary main_call8.v1 (.of main_v83) main_call8.v4 main_call8.call0.v0 select,
    binary main_v84 main_arg12 main_v85 ((fun l r => Host.dotGeneral dot_S512x512_S512x1_S512x1_1_0_0_1_n_n none l r)),
    unary main_arg13 main_v86 (broadcastInDim S1x1 ![1] bcast_S1_S1x1_1),
    unary main_v86 main_v87 (broadcastInDim S512x1 ![0, 1] bcast_S1x1_S512x1_0_1),
    binary main_v85 main_v87 main_v88 (addf),
    reshape main_v88 main_v89 rfl shapeCasts_S512x1_S512 ]

abbrev ops : List (HloOp τ sig (Elt F)) := ops_part0 ++ ops_part1

set_option maxRecDepth 8192 in

theorem main_part0_eq (c : Dev nD) : main_part0 (F := F) c = seq ops_part0 := by
  simp only [main_part0, fn_clip.body, fn_relu.body, seq, bind_assoc, pure_bind]
  rfl

set_option maxRecDepth 8192 in

theorem main_part1_eq (c : Dev nD) : main_part1 (F := F) c = seq ops_part1 := by
  simp only [main_part1, fn_relu.body, fn_clip_0.body, fn_leaky_relu.body, fn_leaky_relu_1.body, fn_where.body,
    fn_where_2.body, seq, bind_assoc, pure_bind]
  rfl

theorem main_eq (c : Dev nD) : main (F := F) c = seq ops := by
  simp only [ops, seq_append, ← main_part0_eq c, ← main_part1_eq c, main]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., ternary_bufs_sub .., nullary_bufs_sub .., unary_bufs_sub ..,
    unary_bufs_sub .., binary_bufs_sub .., nullary_bufs_sub .., unary_bufs_sub .., unary_bufs_sub .., ternary_bufs_sub ..,
    nullary_bufs_sub .., unary_bufs_sub .., unary_bufs_sub .., binary_bufs_sub .., unary_bufs_sub .., unary_bufs_sub ..,
    unary_bufs_sub .., binary_bufs_sub .., nullary_bufs_sub .., unary_bufs_sub ..⟩

set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., ternary_bufs_sub .., nullary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

abbrev W1 : List (Ref sig .tc) :=
  [ main_cst, main_v0, main_cst_0, main_v1, main_v2, main_v3, main_cst_1, main_call0_v0, main_call0_v1, main_v4,
    main_cst_2, main_v5, main_v6, main_v7, main_cst_3, main_call1_v0, main_call1_v1, main_v8, main_v9, main_v10,
    main_v11, main_v12, main_c, main_v13, main_v14, main_c_4, main_v15, main_v16, main_v17, main_v18,
    main_v19, main_cst_5, main_v20, main_v21, main_v22, main_v23, main_v24, main_v25, main_v26 ]
abbrev W2 : List (Ref sig .tc) :=
  [ main_v27, main_v28, main_v29, main_v30, main_call2_cst, main_call2_v0, main_v31 ]
abbrev W3 : List (Ref sig .tc) :=
  [ main_cst_6, main_v32, main_cst_7, main_v33, main_v34, main_v35, main_cst_8, main_call3_v0, main_call3_v1, main_v36,
    main_cst_9, main_v37, main_v38, main_v39, main_cst_10, main_call4_v0, main_call4_v1, main_v40, main_v41, main_v42,
    main_v43, main_v44, main_c_11, main_v45, main_v46, main_c_12, main_v47, main_v48, main_v49, main_v50,
    main_v51, main_cst_13, main_v52, main_v53, main_v54, main_v55, main_v56, main_v57, main_v58 ]
abbrev W4 : List (Ref sig .tc) :=
  [ main_v59, main_v60, main_v61, main_v62, main_call5_cst, main_call5_v0, main_v63 ]
abbrev W5 : List (Ref sig .tc) :=
  [ main_cst_14, main_v64, main_cst_15, main_v65, main_v66, main_v67, main_cst_16, main_call6_v0, main_call6_v1, main_v68 ]
abbrev W6 : List (Ref sig .tc) :=
  [ main_cst_17, main_v69, main_v70, main_v71 ]
abbrev W7 : List (Ref sig .tc) :=
  [ main_v72, main_v73, main_v74, main_v75, main_v76, main_v77, main_v78, main_cst_18, main_call7_cst, main_call7_v0,
    main_call7_v1, main_call7_v2, main_call7_v3, main_call7_v4, main_v79, main_v80, main_v81, main_v82, main_v83, main_cst_19,
    main_call8_cst, main_call8_v0, main_call8_v1, main_call8_v2, main_call8_v3, main_call8_v4, main_v84, main_v85, main_v86, main_v87,
    main_v88, main_v89 ]
abbrev W : List (Ref sig .tc) := W1 ++ (W2 ++ (W3 ++ (W4 ++ (W5 ++ (W6 ++ W7)))))

set_option maxRecDepth 8192 in
theorem ops_part0_writes :
    (ops_part0 : List (HloOp τ sig (Elt F))).Forall fun op => op.writes ⊆ (W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

set_option maxRecDepth 8192 in
theorem ops_part1_writes :
    (ops_part1 : List (HloOp τ sig (Elt F))).Forall fun op => op.writes ⊆ (W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem ops_writes :
    (ops : List (HloOp τ sig (Elt F))).Forall fun op => op.writes ⊆ (W.map (Proc.devRef (τ := τ) .tc)).toFinset :=
  List.forall_iff_forall_mem.mpr fun op h => by
    simp only [ops, List.mem_append] at h
    rcases h with h | h
    exacts [List.forall_iff_forall_mem.mp ops_part0_writes op h, List.forall_iff_forall_mem.mp ops_part1_writes op h]

theorem after_keep (V : Valuation τ sig (Elt F)) (r : Ref sig .tc) (h : r ∉ W) :
    after ops V (Proc.devRef .tc r) = V (Proc.devRef .tc r) :=
  after_of_writes_sub ops V ops_writes h

def res (m : (ℓ : Loc nD τ sig) → Buf (Elt F) ℓ) (c : Dev nD) : Buf (Elt F) ((c.tc : Thread nD τ).loc main_v89) :=
  after ops (launchContents m c) (Proc.devRef .tc main_v89)

set_option maxRecDepth 8192 in

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v89) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c main_v89,
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide)),
      (h c main_arg12).trans (after_keep _ main_arg12 (by decide)),
      (h c main_arg13).trans (after_keep _ main_arg13 (by decide))⟩)
    (run_seq scopedRefs_eq scopedSems_eq defs main (fun _ => ops) main_eq (fun _ => ops_sub) m ρ)

end Cert.ReferenceIdeal.HandRun

end
-- ==== Proof.Spec.lean ====
import Mathlib.Data.EReal.Basic
import Mathlib.Algebra.BigOperators.Group.Finset.Basic
import Mathlib.Data.Fintype.Basic
import Mathlib.Data.Fin.Basic

noncomputable section

namespace Gnn.Spec

def lin {K N : ℕ} (a : Fin K → EReal) (W : Fin K → Fin N → EReal) (b : Fin N → EReal) (j : Fin N) : EReal :=
  (∑ k : Fin K, a k * W k j) + b j

def leaky (c x : EReal) : EReal := if 0 ≤ x then x else c * x

def linRelu {K N : ℕ} (a : Fin K → EReal) (W : Fin K → Fin N → EReal) (b : Fin N → EReal) (j : Fin N) : EReal :=
  max (lin a W b j) 0

def pooled {E : ℕ} (gid : Fin E → ℤ) (h : Fin E → EReal) (g : ℤ) : EReal :=
  ∑ e : Fin E, if gid e = g then h e else 0

def head (c : EReal) (mean : Fin 256 → EReal) (W1 : Fin 256 → Fin 1024 → EReal) (b1 : Fin 1024 → EReal)
    (W2 : Fin 1024 → Fin 512 → EReal) (b2 : Fin 512 → EReal) (W3 : Fin 512 → EReal) (b3 : EReal) : EReal :=
  (∑ k : Fin 512, leaky c (lin (fun j => leaky c (lin mean W1 b1 j)) W2 b2 k) * W3 k) + b3

end Gnn.Spec

end
-- ==== Proof.LinRelu.lean ====
import proofs.«414984_j37778532335670_1_alg».proof.Proof.Gen.KernelIdeal.Skeleton
import proofs.«414984_j37778532335670_1_alg».proof.ReferenceIdeal
import proofs.«414984_j37778532335670_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Gnn.LinRelu

open Cert.KernelIdeal Cert.KernelIdeal.Gen Idealize.ShloMosaic Idealize.ShloMosaic.ValueIdx

theorem matmul_k0_apply {φ₁ φ₂ : FTy} (l : FVec Ideal S5000x74 φ₁) (r : FVec Ideal S74x256 φ₂) (p : Fin 5000) (q : Fin 256) :
    matmul dot_S5000x74_S74x256_S5000x256_1_0_0_1_n_n none l r (constant (F := Ideal) S5000x256 .f32 0x00000000#32) (ix2 p q)
      = ∑ k : Fin 74, l (ix2 p k) * r (ix2 k q) :=
  (congrFun (matmul_zero_eq_dotGeneral _ none l r) _).trans (StackMember.dotGeneral_plain_apply none l r p q)

theorem pay0_apply (x : Vec Ideal S5000x74 .f32) (W : Vec Ideal S74x256 .f32) (b : Vec Ideal S1x256 .f32) (p : Fin 5000) (q : Fin 256) :
    k0_pay1 (F := Ideal) x W b (ix2 p q)
      = Gnn.Spec.linRelu (fun k => x (ix2 p k)) (fun k j => W (ix2 k j)) (fun j => b (ix2 (0 : Fin 1) j)) q := by
  unfold k0_pay1
  rw [maximumf_apply, addf_apply, broadcast_apply, matmul_k0_apply, shapeCast_self, shapeCast_self, broadcastTo_1b_ab_apply]
  simp only [truncf_apply]
  show max ((∑ k : Fin 74, x (ix2 p k) * W (ix2 k q)) + b (ix2 (0 : Fin 1) q)) (Ideal.ofBits .f32 0x00000000#32) = _
  rw [Ideal.ofBits_zero_f32]
  rfl

theorem matmul_k1_apply {φ₁ φ₂ : FTy} (l : FVec Ideal S5000x256 φ₁) (r : FVec Ideal S256x256 φ₂) (p : Fin 5000) (q : Fin 256) :
    matmul dot_S5000x256_S256x256_S5000x256_1_0_0_1_n_n none l r (constant (F := Ideal) S5000x256 .f32 0x00000000#32) (ix2 p q)
      = ∑ k : Fin 256, l (ix2 p k) * r (ix2 k q) :=
  (congrFun (matmul_zero_eq_dotGeneral _ none l r) _).trans (StackMember.dotGeneral_plain_apply none l r p q)

theorem pay1_apply (x : Vec Ideal S5000x256 .f32) (W : Vec Ideal S256x256 .f32) (b : Vec Ideal S1x256 .f32) (p : Fin 5000) (q : Fin 256) :
    k1_pay1 (F := Ideal) x W b (ix2 p q)
      = Gnn.Spec.linRelu (fun k => x (ix2 p k)) (fun k j => W (ix2 k j)) (fun j => b (ix2 (0 : Fin 1) j)) q := by
  unfold k1_pay1
  rw [maximumf_apply, addf_apply, broadcast_apply, matmul_k1_apply, shapeCast_self, shapeCast_self, broadcastTo_1b_ab_apply]
  simp only [truncf_apply]
  show max ((∑ k : Fin 256, x (ix2 p k) * W (ix2 k q)) + b (ix2 (0 : Fin 1) q)) (Ideal.ofBits .f32 0x00000000#32) = _
  rw [Ideal.ofBits_zero_f32]
  rfl

theorem biasRow_apply' {α : Type} (b : S256.Idx → α) (h : S256.ShapeCasts S1x256) (j : Fin 256) :
    shapeCast S1x256 b h (ix2 (0 : Fin 1) j) = b (ix1 j) :=
  shapeCast_a_1a_apply b h 0 j

theorem biasRow_apply (b : FVec Ideal S256 .f32) (j : Fin 256) :
    shapeCast S1x256 b shapeCasts_S256_S1x256 (ix2 (0 : Fin 1) j) = b (ix1 j) :=
  biasRow_apply' b _ j

section Reference

variable [Cert.ReferenceIdeal.Facts₀]

theorem dot_r0_apply {φ₁ φ₂ : FTy} (l : FVec Ideal Cert.ReferenceIdeal.S50000x74 φ₁) (r : FVec Ideal Cert.ReferenceIdeal.S74x256 φ₂) (i : Fin 50000) (q : Fin 256) :
    Host.dotGeneral Cert.ReferenceIdeal.dot_S50000x74_S74x256_S50000x256_1_0_0_1_n_n none l r (ix2 i q)
      = ∑ k : Fin 74, l (ix2 i k) * r (ix2 k q) :=
  StackMember.dotGeneral_plain_apply none l r i q

theorem biasToRow_apply {α : Type} (b : Cert.ReferenceIdeal.S256.Idx → α)
    (h : Cert.ReferenceIdeal.S256.BroadcastsInDim Cert.ReferenceIdeal.S1x256 (![1] : Fin 1 → Fin Cert.ReferenceIdeal.S1x256.rank))
    (u : Fin 1) (j : Fin 256) :
    broadcastInDim Cert.ReferenceIdeal.S1x256 ![1] h b (ix2 u j) = b (ix1 j) := by
  refine broadcastInDim_apply _ h b (ix2 u j) (ix1 j) fun a => ?_
  match a with
  | ⟨0, _⟩ => rfl

theorem rowDown_apply {α : Type} (v : Cert.ReferenceIdeal.S1x256.Idx → α)
    (h : Cert.ReferenceIdeal.S1x256.BroadcastsInDim Cert.ReferenceIdeal.S50000x256 (![0, 1] : Fin 2 → Fin Cert.ReferenceIdeal.S50000x256.rank))
    (i : Fin 50000) (q : Fin 256) :
    broadcastInDim Cert.ReferenceIdeal.S50000x256 ![0, 1] h v (ix2 i q) = v (ix2 (0 : Fin 1) q) := by
  refine broadcastInDim_apply _ h v (ix2 i q) (ix2 (0 : Fin 1) q) fun a => ?_
  match a with
  | ⟨0, _⟩ => rfl
  | ⟨1, _⟩ => rfl

theorem splat_apply {α : Type} (c : Cert.ReferenceIdeal.S_.Idx → α)
    (h : Cert.ReferenceIdeal.S_.BroadcastsInDim Cert.ReferenceIdeal.S50000x256 (![] : Fin 0 → Fin Cert.ReferenceIdeal.S50000x256.rank))
    (j : Cert.ReferenceIdeal.S50000x256.Idx) :
    broadcastInDim Cert.ReferenceIdeal.S50000x256 ![] h c j = c ix0 :=
  broadcastInDim_apply _ h c j ix0 fun a => a.elim0

def refLayer0 (A : FVec Ideal Cert.ReferenceIdeal.S50000x74 .f32) (W : FVec Ideal Cert.ReferenceIdeal.S74x256 .f32)
    (b : FVec Ideal Cert.ReferenceIdeal.S256 .f32) : FVec Ideal Cert.ReferenceIdeal.S50000x256 .f32 :=
  maximumf
    (addf (Host.dotGeneral Cert.ReferenceIdeal.dot_S50000x74_S74x256_S50000x256_1_0_0_1_n_n none A W)
      (broadcastInDim Cert.ReferenceIdeal.S50000x256 ![0, 1] Cert.ReferenceIdeal.Facts₀.bcast_S1x256_S50000x256_0_1
        (broadcastInDim Cert.ReferenceIdeal.S1x256 ![1] Cert.ReferenceIdeal.Facts₀.bcast_S256_S1x256_1 b)))
    (broadcastInDim Cert.ReferenceIdeal.S50000x256 ![] Cert.ReferenceIdeal.Facts₀.bcast_S_S50000x256
      (constant (F := Ideal) Cert.ReferenceIdeal.S_ .f32 0x00000000#32))

theorem refLayer0_apply (A : FVec Ideal Cert.ReferenceIdeal.S50000x74 .f32) (W : FVec Ideal Cert.ReferenceIdeal.S74x256 .f32)
    (b : FVec Ideal Cert.ReferenceIdeal.S256 .f32) (i : Fin 50000) (q : Fin 256) :
    refLayer0 A W b (ix2 i q)
      = Gnn.Spec.linRelu (fun k => A (ix2 i k)) (fun k j => W (ix2 k j)) (fun j => b (ix1 j)) q := by
  unfold refLayer0
  rw [maximumf_apply, addf_apply, dot_r0_apply, rowDown_apply, biasToRow_apply, splat_apply, constant_apply, Ideal.ofBits_zero_f32]
  rfl

theorem dot_r1_apply {φ₁ φ₂ : FTy} (l : FVec Ideal Cert.ReferenceIdeal.S50000x256 φ₁) (r : FVec Ideal Cert.ReferenceIdeal.S256x256 φ₂) (i : Fin 50000) (q : Fin 256) :
    Host.dotGeneral Cert.ReferenceIdeal.dot_S50000x256_S256x256_S50000x256_1_0_0_1_n_n none l r (ix2 i q)
      = ∑ k : Fin 256, l (ix2 i k) * r (ix2 k q) :=
  StackMember.dotGeneral_plain_apply none l r i q

def refLayer1 (A : FVec Ideal Cert.ReferenceIdeal.S50000x256 .f32) (W : FVec Ideal Cert.ReferenceIdeal.S256x256 .f32)
    (b : FVec Ideal Cert.ReferenceIdeal.S256 .f32) : FVec Ideal Cert.ReferenceIdeal.S50000x256 .f32 :=
  maximumf
    (addf (Host.dotGeneral Cert.ReferenceIdeal.dot_S50000x256_S256x256_S50000x256_1_0_0_1_n_n none A W)
      (broadcastInDim Cert.ReferenceIdeal.S50000x256 ![0, 1] Cert.ReferenceIdeal.Facts₀.bcast_S1x256_S50000x256_0_1
        (broadcastInDim Cert.ReferenceIdeal.S1x256 ![1] Cert.ReferenceIdeal.Facts₀.bcast_S256_S1x256_1 b)))
    (broadcastInDim Cert.ReferenceIdeal.S50000x256 ![] Cert.ReferenceIdeal.Facts₀.bcast_S_S50000x256
      (constant (F := Ideal) Cert.ReferenceIdeal.S_ .f32 0x00000000#32))

theorem refLayer1_apply (A : FVec Ideal Cert.ReferenceIdeal.S50000x256 .f32) (W : FVec Ideal Cert.ReferenceIdeal.S256x256 .f32)
    (b : FVec Ideal Cert.ReferenceIdeal.S256 .f32) (i : Fin 50000) (q : Fin 256) :
    refLayer1 A W b (ix2 i q)
      = Gnn.Spec.linRelu (fun k => A (ix2 i k)) (fun k j => W (ix2 k j)) (fun j => b (ix1 j)) q := by
  unfold refLayer1
  rw [maximumf_apply, addf_apply, dot_r1_apply, rowDown_apply, biasToRow_apply, splat_apply, constant_apply, Ideal.ofBits_zero_f32]
  rfl

end Reference

end Gnn.LinRelu

end
-- ==== Proof.Val.Lin0.lean ====
import proofs.«414984_j37778532335670_1_alg».proof.Proof.KI.Reg0
import proofs.«414984_j37778532335670_1_alg».proof.Proof.LinRelu
import Idealize.ShloMosaic.Lib.Pipeline.Value

noncomputable section

namespace Gnn.Lin0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

def G0 (A : S50000x74.Idx → EReal) (W : S74x256.Idx → EReal) (b : S1x256.Idx → EReal) : S50000x256.Idx → EReal :=
  fun idx => Gnn.Spec.linRelu (fun k : Fin 74 => A (ix2 (idx 0 : Fin 50000) k)) (fun (k : Fin 74) (j : Fin 256) => W (ix2 k j))
    (fun j : Fin 256 => b (ix2 (0 : Fin 1) j)) (idx 1 : Fin 256)

theorem G0_apply (A : S50000x74.Idx → EReal) (W : S74x256.Idx → EReal) (b : S1x256.Idx → EReal) (i : Fin 50000) (q : Fin 256) :
    G0 A W b (ix2 i q) = Gnn.Spec.linRelu (fun k => A (ix2 i k)) (fun k j => W (ix2 k j)) (fun j => b (ix2 (0 : Fin 1) j)) q := rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point0 (x0 : Vec Ideal S5000x74 .f32) (x1 : Vec Ideal S74x256 .f32) (x2 : Vec Ideal S1x256 .f32)
    (A : S50000x74.Idx → EReal) (W : S74x256.Idx → EReal) (b : S1x256.Idx → EReal) (y : S5000x256.Idx) (i : S50000x256.Idx)
    (h0 : ∀ k : Fin 74, x0 (ix2 (y 0 : Fin 5000) k) = A (ix2 (i 0 : Fin 50000) k)) (h1 : x1 = W) (h2 : x2 = b)
    (hq : (y 1 : Fin 256) = (i 1 : Fin 256)) :
    k0_pay1 (F := Ideal) x0 x1 x2 y = G0 A W b i := by
  subst h1 h2
  obtain ⟨p, q, rfl⟩ : ∃ (p : Fin 5000) (q : Fin 256), y = ix2 p q := ⟨y 0, y 1, eq_ix2 y⟩
  obtain ⟨r, s, rfl⟩ : ∃ (r : Fin 50000) (s : Fin 256), i = ix2 r s := ⟨i 0, i 1, eq_ix2 i⟩
  have hqs : q = s := hq
  subst hqs
  rw [Gnn.LinRelu.pay0_apply, G0_apply]
  exact congrArg (fun a => Gnn.Spec.linRelu a _ _ q) (funext h0)

theorem flushed0_eq (c : Dev nD) (t : Fin cfg0.N) :
    (dat0 V c).flushed 3 t = ((cfg0.win 3).blk t).view.read (Elt Ideal) (G0 (V c main_v26) (V c main_arg4) (V c main_v27)) := by
  show (cfg0.win 3).cut (grid0.coords t) ((dat0 V c).after 3 t) = _
  rw [after0_3]
  unfold out0_3
  rw [View.canon_unit_zero hz]
  simp only [View.ld_unit_zero (S := S5000x74) hz, View.ld_unit_zero (S := S74x256) hz, View.ld_unit_zero (S := S1x256) hz]
  obtain ⟨e0, e1, e2, e3, e4, e5, e6, e7⟩ := idx_facts0 t
  funext j
  refine point0 _ _ _ _ _ _ j (((cfg0.win 3).blk t).view.emb j) (fun k => ?_) (funext fun x => ?_) (funext fun x => ?_) (Fin.ext ?_)
  ·
    show V c main_v26 (((cfg0.win 0).blk t).view.emb (ix2 (j 0 : Fin 5000) k)) = V c main_v26 (ix2 ((((cfg0.win 3).blk t).view.emb j) 0 : Fin 50000) k)
    refine congrArg (V c main_v26) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 74 + 1 * k.val = k.val; omega
  ·
    show V c main_arg4 (((cfg0.win 1).blk t).view.emb x) = V c main_arg4 x
    refine congrArg (V c main_arg4) (funext fun a => Fin.ext ?_)
    match a with
    | ⟨0, _⟩ => show win0_1.index t (0 : Fin 2) * 74 + 1 * (x 0).val = (x 0).val; omega
    | ⟨1, _⟩ => show win0_1.index t (1 : Fin 2) * 256 + 1 * (x 1).val = (x 1).val; omega
  ·
    show V c main_v27 (((cfg0.win 2).blk t).view.emb x) = V c main_v27 x
    refine congrArg (V c main_v27) (funext fun a => Fin.ext ?_)
    match a with
    | ⟨0, _⟩ => show win0_2.index t (0 : Fin 2) * 1 + 1 * (x 0).val = (x 0).val; omega
    | ⟨1, _⟩ => show win0_2.index t (1 : Fin 2) * 256 + 1 * (x 1).val = (x 1).val; omega
  ·
    show (j 1).val = win0_3.index t (1 : Fin 2) * 256 + 1 * (j 1).val
    omega

theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v28).slice (win0_3.rect t)).set ↔ _
  rw [View.set_slice_whole, Rect.mem_set_unit]
  exact Iff.rfl

theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := by decide +kernel
  let t : Fin cfg0.N := ⟨(i 0).val / 5000, by rw [hN]; omega⟩
  have ht : t.val = (i 0).val / 5000 := rfl
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

theorem final0 (c : Dev nD) : (dat0 V c).arrAt 3 cfg0.N = G0 (V c main_v26) (V c main_arg4) (V c main_v27) :=
  (dat0 V c).arrAt_eq_of_cover 3 (G0 (V c main_v26) (V c main_arg4) (V c main_v27)) (fun t _ => flushed0_eq V c t) cover0

theorem final0' (c : Dev nD) : (dat0 V c).arrAt 3 cfg0.N = fun idx : S50000x256.Idx =>
    Gnn.Spec.linRelu (fun k : Fin 74 => (V c main_v26 : S50000x74.Idx → EReal) (ix2 (idx 0 : Fin 50000) k))
      (fun (k : Fin 74) (j : Fin 256) => (V c main_arg4 : S74x256.Idx → EReal) (ix2 k j))
      (fun j : Fin 256 => (V c main_v27 : S1x256.Idx → EReal) (ix2 (0 : Fin 1) j)) (idx 1 : Fin 256) :=
  final0 V c

end Gnn.Lin0

end
-- ==== Proof.Val.Lin1.lean ====
/-
  The first graph-convolution layer's output array after the kernel's run, entry by entry.

  The pipeline cuts the [50000, 256] aggregated features and the [50000, 256] output into ten blocks of 5000 rows; the
  weights and the bias row are whole arrays at every point. At point t the body stores max(x · W + b, 0) of its feature
  block, so what the point writes back, read at row p of the block, is the layer's entry on row 5000 · t + p of the
  array: the block of ONE whole-array function. Every row r lies in the block of point r / 5000, so the blocks cover
  the array and it ends holding that function.
-/
import proofs.«414984_j37778532335670_1_alg».proof.Proof.KI.Reg1
import proofs.«414984_j37778532335670_1_alg».proof.Proof.LinRelu
import Idealize.ShloMosaic.Lib.Pipeline.Value

noncomputable section

namespace Gnn.Lin1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The layer on whole arrays: entry (r, q) is max(A[r, ·] · W[·, q] + b[0, q], 0). -/
def G1 (A : S50000x256.Idx → EReal) (W : S256x256.Idx → EReal) (b : S1x256.Idx → EReal) : S50000x256.Idx → EReal :=
  fun idx => Gnn.Spec.linRelu (fun k : Fin 256 => A (ix2 (idx 0 : Fin 50000) k)) (fun (k : Fin 256) (j : Fin 256) => W (ix2 k j))
    (fun j : Fin 256 => b (ix2 (0 : Fin 1) j)) (idx 1 : Fin 256)

/-- At explicit coordinates. -/
theorem G1_apply (A : S50000x256.Idx → EReal) (W : S256x256.Idx → EReal) (b : S1x256.Idx → EReal) (i : Fin 50000) (q : Fin 256) :
    G1 A W b (ix2 i q) = Gnn.Spec.linRelu (fun k => A (ix2 i k)) (fun k j => W (ix2 k j)) (fun j => b (ix2 (0 : Fin 1) j)) q := rfl

/-- The printed index maps over the grid: the feature and output windows' block row is the point, every other block
    coordinate is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the body's value: when the feature block's row (y 0) is the array's row (i 0), the other two blocks are
    the whole arrays, and the columns agree, the value at y is the layer's entry at i. -/
theorem point1 (x0 : Vec Ideal S5000x256 .f32) (x1 : Vec Ideal S256x256 .f32) (x2 : Vec Ideal S1x256 .f32)
    (A : S50000x256.Idx → EReal) (W : S256x256.Idx → EReal) (b : S1x256.Idx → EReal) (y : S5000x256.Idx) (i : S50000x256.Idx)
    (h0 : ∀ k : Fin 256, x0 (ix2 (y 0 : Fin 5000) k) = A (ix2 (i 0 : Fin 50000) k)) (h1 : x1 = W) (h2 : x2 = b)
    (hq : (y 1 : Fin 256) = (i 1 : Fin 256)) :
    k1_pay1 (F := Ideal) x0 x1 x2 y = G1 A W b i := by
  subst h1 h2
  obtain ⟨p, q, rfl⟩ : ∃ (p : Fin 5000) (q : Fin 256), y = ix2 p q := ⟨y 0, y 1, eq_ix2 y⟩
  obtain ⟨r, s, rfl⟩ : ∃ (r : Fin 50000) (s : Fin 256), i = ix2 r s := ⟨i 0, i 1, eq_ix2 i⟩
  have hqs : q = s := hq
  subst hqs
  rw [Gnn.LinRelu.pay1_apply, G1_apply]
  exact congrArg (fun a => Gnn.Spec.linRelu a _ _ q) (funext h0)

/-- What point t writes back is block t of the layer on the arrays as the region finds them. -/
theorem flushed1_eq (c : Dev nD) (t : Fin cfg1.N) :
    (dat1 V c).flushed 3 t = ((cfg1.win 3).blk t).view.read (Elt Ideal) (G1 (V c main_v44) (V c main_arg6) (V c main_v45)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x256) hz, View.ld_unit_zero (S := S1x256) hz]
  obtain ⟨e0, e1, e2, e3, e4, e5, e6, e7⟩ := idx_facts1 t
  funext j
  refine point1 _ _ _ _ _ _ j (((cfg1.win 3).blk t).view.emb j) (fun k => ?_) (funext fun x => ?_) (funext fun x => ?_) (Fin.ext ?_)
  · -- the feature block's row p is the array's row 5000 t + p, which is the output block's row p
    show V c main_v44 (((cfg1.win 0).blk t).view.emb (ix2 (j 0 : Fin 5000) k)) = V c main_v44 (ix2 ((((cfg1.win 3).blk t).view.emb j) 0 : Fin 50000) k)
    refine congrArg (V c main_v44) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 256 + 1 * k.val = k.val; omega
  · -- the weights' one block is the whole array
    show V c main_arg6 (((cfg1.win 1).blk t).view.emb x) = V c main_arg6 x
    refine congrArg (V c main_arg6) (funext fun a => Fin.ext ?_)
    match a with
    | ⟨0, _⟩ => show win1_1.index t (0 : Fin 2) * 256 + 1 * (x 0).val = (x 0).val; omega
    | ⟨1, _⟩ => show win1_1.index t (1 : Fin 2) * 256 + 1 * (x 1).val = (x 1).val; omega
  · -- the bias row's one block is the whole array
    show V c main_v45 (((cfg1.win 2).blk t).view.emb x) = V c main_v45 x
    refine congrArg (V c main_v45) (funext fun a => Fin.ext ?_)
    match a with
    | ⟨0, _⟩ => show win1_2.index t (0 : Fin 2) * 1 + 1 * (x 0).val = (x 0).val; omega
    | ⟨1, _⟩ => show win1_2.index t (1 : Fin 2) * 256 + 1 * (x 1).val = (x 1).val; omega
  · -- the output block's column is the array's column
    show (j 1).val = win1_3.index t (1 : Fin 2) * 256 + 1 * (j 1).val
    omega

/-- An index of the array is in point t's block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v46).slice (win1_3.rect t)).set ↔ _
  rw [View.set_slice_whole, Rect.mem_set_unit]
  exact Iff.rfl

/-- Every index is in the block of the point its row falls in. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := by decide +kernel
  let t : Fin cfg1.N := ⟨(i 0).val / 5000, by rw [hN]; omega⟩
  have ht : t.val = (i 0).val / 5000 := rfl
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The output array after the run is the layer of the arrays as the region finds them. -/
theorem final1 (c : Dev nD) : (dat1 V c).arrAt 3 cfg1.N = G1 (V c main_v44) (V c main_arg6) (V c main_v45) :=
  (dat1 V c).arrAt_eq_of_cover 3 (G1 (V c main_v44) (V c main_arg6) (V c main_v45)) (fun t _ => flushed1_eq V c t) cover1

/-- The same with the function written out. -/
theorem final0' (c : Dev nD) : (dat1 V c).arrAt 3 cfg1.N = fun idx : S50000x256.Idx =>
    Gnn.Spec.linRelu (fun k : Fin 256 => (V c main_v44 : S50000x256.Idx → EReal) (ix2 (idx 0 : Fin 50000) k))
      (fun (k : Fin 256) (j : Fin 256) => (V c main_arg6 : S256x256.Idx → EReal) (ix2 k j))
      (fun j : Fin 256 => (V c main_v45 : S1x256.Idx → EReal) (ix2 (0 : Fin 1) j)) (idx 1 : Fin 256) :=
  final1 V c

end Gnn.Lin1

end
-- ==== Proof.Val.Layer.lean ====
import proofs.«414984_j37778532335670_1_alg».proof.Proof.Val.Lin0
import proofs.«414984_j37778532335670_1_alg».proof.Proof.Val.Lin1
import proofs.«414984_j37778532335670_1_alg».proof.Proof.LinRelu

noncomputable section

namespace Gnn.Layer

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))
variable [Cert.ReferenceIdeal.Facts₀]

theorem layer0 (c : Dev nD) (A : FVec Ideal Cert.ReferenceIdeal.S50000x74 .f32) (W : FVec Ideal Cert.ReferenceIdeal.S74x256 .f32)
    (b : FVec Ideal Cert.ReferenceIdeal.S256 .f32)
    (hA : (V c main_v26 : S50000x74.Idx → EReal) = A) (hW : (V c main_arg4 : S74x256.Idx → EReal) = W)
    (hb : (V c main_v27 : S1x256.Idx → EReal) = shapeCast S1x256 b shapeCasts_S256_S1x256) :
    ((dat0 V c).arrAt 3 cfg0.N : S50000x256.Idx → EReal) = Gnn.LinRelu.refLayer0 A W b := by
  rw [Gnn.Lin0.final0 V c, hA, hW, hb]
  funext idx
  obtain ⟨i, q, rfl⟩ : ∃ (i : Fin 50000) (q : Fin 256), idx = ix2 i q := ⟨idx 0, idx 1, eq_ix2 idx⟩
  rw [Gnn.Lin0.G0_apply, Gnn.LinRelu.refLayer0_apply]
  simp only [Gnn.LinRelu.biasRow_apply]

theorem layer1 (c : Dev nD) (A : FVec Ideal Cert.ReferenceIdeal.S50000x256 .f32) (W : FVec Ideal Cert.ReferenceIdeal.S256x256 .f32)
    (b : FVec Ideal Cert.ReferenceIdeal.S256 .f32)
    (hA : (V c main_v44 : S50000x256.Idx → EReal) = A) (hW : (V c main_arg6 : S256x256.Idx → EReal) = W)
    (hb : (V c main_v45 : S1x256.Idx → EReal) = shapeCast S1x256 b shapeCasts_S256_S1x256) :
    ((dat1 V c).arrAt 3 cfg1.N : S50000x256.Idx → EReal) = Gnn.LinRelu.refLayer1 A W b := by
  rw [Gnn.Lin1.final1 V c, hA, hW, hb]
  funext idx
  obtain ⟨i, q, rfl⟩ : ∃ (i : Fin 50000) (q : Fin 256), idx = ix2 i q := ⟨idx 0, idx 1, eq_ix2 idx⟩
  rw [Gnn.Lin1.G1_apply, Gnn.LinRelu.refLayer1_apply]
  simp only [Gnn.LinRelu.biasRow_apply]

end Gnn.Layer

end
-- ==== Proof.LibRows.lean ====
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

end Gcn.Rows

end
-- ==== Proof.PoolHead.lean ====
import proofs.«414984_j37778532335670_1_alg».proof.Proof.Gen.KernelIdeal.Skeleton
import proofs.«414984_j37778532335670_1_alg».proof.Proof.Gen.ReferenceIdeal
import proofs.«414984_j37778532335670_1_alg».proof.Proof.Spec
import proofs.«414984_j37778532335670_1_alg».proof.Proof.LibRows
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Gnn.PoolHead

open Idealize.ShloMosaic Idealize.ShloMosaic.ValueIdx

section Plain
variable {m k n : ℕ} (D : DotDims ⟨2, ![m, k]⟩ ⟨2, ![k, n]⟩ ⟨2, ![m, n]⟩)

theorem plain_sum {φ₁ φ₂ : FTy} (hD : D = DotDims.plain m k n)
    (A : FVec Ideal ⟨2, ![m, k]⟩ φ₁) (B : FVec Ideal ⟨2, ![k, n]⟩ φ₂) (a : Fin m) (b : Fin n) :
    ∑ q : D.contr.Idx, A (D.lhsIdx (ix2 a b) q) * B (D.rhsIdx (ix2 a b) q) = ∑ c : Fin k, A (ix2 a c) * B (ix2 c b) := by
  subst hD
  rw [← StackMember.dotGeneral_plain_apply none A B a b]
  show _ = FloatOps.dotGeneral _ none _ A B (ix2 a b)
  rw [Ideal.dotGeneral_apply]

end Plain

section Cols
variable {m k n : ℕ} (D : DotDims ⟨2, ![k, m]⟩ ⟨2, ![k, n]⟩ ⟨2, ![m, n]⟩)

theorem cols_rank (hlc : D.lhsContracting = [0]) : D.contr.rank = 1 := by
  rw [D.rank_contr, hlc]; rfl

theorem cols_size (hlc : D.lhsContracting = [0]) :
    D.contr.size ⟨0, by rw [cols_rank D hlc]; exact Nat.one_pos⟩ = k := by
  have h := D.size_contr 0 (by rw [hlc]; exact Nat.one_pos)
  rw [h]
  simp [hlc]

theorem cols_lhs_1 (hlb : D.lhsBatch = []) (hln : D.lhsNonContracting = [1])
    (i : (⟨2, ![m, n]⟩ : Shape).Idx) (q : D.contr.Idx) : (D.lhsIdx i q 1).val = (i 0).val := by
  unfold DotDims.lhsIdx
  rw [dif_neg (show ¬ (1 : Fin 2) ∈ D.lhsBatch by rw [hlb]; exact List.not_mem_nil),
    dif_pos (show (1 : Fin 2) ∈ D.lhsNonContracting by rw [hln]; exact List.mem_singleton.mpr rfl)]
  simp only [Fin.val_cast]
  have key : ∀ (p : ℕ) (hp : p < 2), p = 0 → (i ⟨p, hp⟩).val = (i 0).val := by
    intro p hp h; subst h; rfl
  exact key _ _ (by simp [hlb, hln])

theorem cols_rhs_1 (hrb : D.rhsBatch = []) (hlb : D.lhsBatch = []) (hln : D.lhsNonContracting = [1])
    (hrn : D.rhsNonContracting = [1])
    (i : (⟨2, ![m, n]⟩ : Shape).Idx) (q : D.contr.Idx) : (D.rhsIdx i q 1).val = (i 1).val := by
  unfold DotDims.rhsIdx
  rw [dif_neg (show ¬ (1 : Fin 2) ∈ D.rhsBatch by rw [hrb]; exact List.not_mem_nil),
    dif_pos (show (1 : Fin 2) ∈ D.rhsNonContracting by rw [hrn]; exact List.mem_singleton.mpr rfl)]
  simp only [Fin.val_cast]
  have key : ∀ (p : ℕ) (hp : p < 2), p = 1 → (i ⟨p, hp⟩).val = (i 1).val := by
    intro p hp h; subst h; rfl
  exact key _ _ (by simp [hlb, hln, hrn])

theorem cols_sum {φ₁ φ₂ : FTy} (hlc : D.lhsContracting = [0]) (hrc : D.rhsContracting = [0])
    (hln : D.lhsNonContracting = [1]) (hrn : D.rhsNonContracting = [1]) (hlb : D.lhsBatch = []) (hrb : D.rhsBatch = [])
    (A : FVec Ideal ⟨2, ![k, m]⟩ φ₁) (B : FVec Ideal ⟨2, ![k, n]⟩ φ₂) (a : Fin m) (b : Fin n) :
    ∑ q : D.contr.Idx, A (D.lhsIdx (ix2 a b) q) * B (D.rhsIdx (ix2 a b) q) = ∑ c : Fin k, A (ix2 c a) * B (ix2 c b) := by
  rw [← Equiv.sum_comp (contrEquiv1 D k (cols_rank D hlc) (cols_size D hlc)).symm]
  refine Finset.sum_congr rfl fun c _ => ?_
  have hk := contrEquiv1_symm_val D k (cols_rank D hlc) (cols_size D hlc) c
  have el : D.lhsIdx (ix2 a b) ((contrEquiv1 D k (cols_rank D hlc) (cols_size D hlc)).symm c) = ix2 c a :=
    funext fun x => Fin.ext (by
      match x with
      | ⟨0, _⟩ => exact (D.lhsIdx_val_of_single hlc _ _).trans hk
      | ⟨1, _⟩ => exact cols_lhs_1 D hlb hln _ _)
  have er : D.rhsIdx (ix2 a b) ((contrEquiv1 D k (cols_rank D hlc) (cols_size D hlc)).symm c) = ix2 c b :=
    funext fun x => Fin.ext (by
      match x with
      | ⟨0, _⟩ => exact (D.rhsIdx_val_of_single hrc _ _).trans hk
      | ⟨1, _⟩ => exact cols_rhs_1 D hrb hlb hln hrn _ _)
  rw [el, er]

end Cols

theorem onehot_word (w : BitVec 32) (g : Fin 512) :
    (FloatOps.sitofp (F := Ideal) .f32 ((IntOp.cmpi .eq w (BitVec.ofNat 32 g.val)).setWidth 32) : EReal)
      = if w.toInt = (g.val : ℤ) then 1 else 0 := by
  have hg := g.isLt
  have h1 : (BitVec.ofNat 32 g.val).toInt = (g.val : ℤ) := by
    rw [BitVec.toInt_eq_toNat_cond, BitVec.toNat_ofNat]
    have : g.val % 2 ^ 32 = g.val := Nat.mod_eq_of_lt (by omega)
    rw [this, if_pos (by omega)]
  have hiff : w = BitVec.ofNat 32 g.val ↔ w.toInt = (g.val : ℤ) :=
    ⟨fun h => h ▸ h1, fun h => BitVec.eq_of_toInt_eq (h.trans h1.symm)⟩
  by_cases h : w = BitVec.ofNat 32 g.val
  · have hc : IntOp.cmpi .eq w (BitVec.ofNat 32 g.val) = 1#1 := by simp [IntOp.cmpi, h]
    rw [hc, if_pos (hiff.mp h)]
    show (((((1#1 : BitVec 1).setWidth 32).toInt : ℤ) : ℝ) : EReal) = 1
    have : ((1#1 : BitVec 1).setWidth 32).toInt = 1 := by decide
    rw [this]; simp
  · have hc : IntOp.cmpi .eq w (BitVec.ofNat 32 g.val) = 0#1 := by
      show BitVec.ofBool (w == BitVec.ofNat 32 g.val) = 0#1
      rw [beq_eq_false_iff_ne.mpr h]; rfl
    rw [hc, if_neg (fun h' => h (hiff.mpr h'))]
    show (((((0#1 : BitVec 1).setWidth 32).toInt : ℤ) : ℝ) : EReal) = 0
    have : ((0#1 : BitVec 1).setWidth 32).toInt = 0 := by decide
    rw [this]; simp

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

theorem bcast_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

theorem bcast_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

theorem bcast_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Layout

theorem select_oge_zero (c x : EReal) :
    Scalar.select (FloatOps.cmpf (F := Ideal) (φ := .f32) .oge x (Ideal.ofBits .f32 0x00000000#32)) x (c * x)
      = Gnn.Spec.leaky c x := by
  unfold Gnn.Spec.leaky
  rw [Ideal.ofBits_zero_f32]
  show Scalar.select (Ideal.cmp .oge x 0) x (c * x) = _
  unfold Ideal.cmp Scalar.select
  by_cases h : (0 : EReal) ≤ x
  · simp [h]
  · simp [h]

theorem leaky_kernel {s : Shape} (x : FVec Ideal s .f32) (i : s.Idx) :
    select (cmpf .oge x (broadcast s (Scalar.ofBits (F := Ideal) .f32 0x00000000#32))) x
        (mulf (broadcast s (Scalar.ofBits (F := Ideal) .f32 0x3C23D70A#32)) x) i
      = Gnn.Spec.leaky (Ideal.ofBits .f32 0x3C23D70A#32) (x i) :=
  select_oge_zero _ _

theorem leaky_ref {s : Shape} (h0 : (⟨0, ![]⟩ : Shape).BroadcastsInDim s (![] : Fin 0 → Fin s.rank))
    (x : FVec Ideal s .f32) (i : s.Idx) :
    select (cmpf .oge x (broadcastInDim s (![] : Fin 0 → Fin s.rank) h0 (constant (F := Ideal) ⟨0, ![]⟩ .f32 0x00000000#32))) x
        (mulf (broadcastInDim s (![] : Fin 0 → Fin s.rank) h0 (id (constant (F := Ideal) ⟨0, ![]⟩ .f32 0x3C23D70A#32))) x) i
      = Gnn.Spec.leaky (Ideal.ofBits .f32 0x3C23D70A#32) (x i) := by
  have e0 : broadcastInDim s (![] : Fin 0 → Fin s.rank) h0 (constant (F := Ideal) ⟨0, ![]⟩ .f32 0x00000000#32) i
      = Ideal.ofBits .f32 0x00000000#32 := bcast_scalar_apply _ h0 i
  have e1 : broadcastInDim s (![] : Fin 0 → Fin s.rank) h0 (id (constant (F := Ideal) ⟨0, ![]⟩ .f32 0x3C23D70A#32)) i
      = Ideal.ofBits .f32 0x3C23D70A#32 := bcast_scalar_apply _ h0 i
  show Scalar.select (FloatOps.cmpf (F := Ideal) (φ := .f32) .oge (x i)
      (broadcastInDim s (![] : Fin 0 → Fin s.rank) h0 (constant (F := Ideal) ⟨0, ![]⟩ .f32 0x00000000#32) i)) (x i)
      (broadcastInDim s (![] : Fin 0 → Fin s.rank) h0 (id (constant (F := Ideal) ⟨0, ![]⟩ .f32 0x3C23D70A#32)) i * x i) = _
  rw [e0, e1]
  exact select_oge_zero _ _

theorem hostDivf_apply {s : Shape} {φ : FTy} (a b : FVec Ideal s φ) (i : s.Idx) :
    Host.divf a b i = Ideal.div (a i) (b i) := rfl

section Affine
variable {m k n : ℕ} (D : DotDims ⟨2, ![m, k]⟩ ⟨2, ![k, n]⟩ ⟨2, ![m, n]⟩)

theorem affine_kernel (hD : D = DotDims.plain m k n)
    (A : FVec Ideal ⟨2, ![m, k]⟩ .f32) (W : FVec Ideal ⟨2, ![k, n]⟩ .f32) (b : FVec Ideal ⟨2, ![1, n]⟩ .f32)
    (h1 : FTy.bits .bf16 < FTy.bits .f32) (hb : (⟨2, ![1, n]⟩ : Shape).Broadcasts ⟨2, ![m, n]⟩) (a : Fin m) (j : Fin n) :
    addf (FloatOps.matmul D none (truncf .bf16 A h1) (truncf .bf16 W h1) (constant (F := Ideal) ⟨2, ![m, n]⟩ .f32 0x00000000#32))
        (broadcastTo ⟨2, ![m, n]⟩ b hb) (ix2 a j)
      = Gnn.Spec.lin (fun c => A (ix2 a c)) (fun c j => W (ix2 c j)) (fun j => b (ix2 (0 : Fin 1) j)) j := by
  rw [addf_apply, Ideal.matmul_constant_zero_apply, plain_sum D hD, broadcastTo_1b_ab_apply]
  rfl

theorem affine_ref (hD : D = DotDims.plain m k n)
    (A : FVec Ideal ⟨2, ![m, k]⟩ .f32) (W : FVec Ideal ⟨2, ![k, n]⟩ .f32) (b : FVec Ideal ⟨1, ![n]⟩ .f32)
    (hb1 : (⟨1, ![n]⟩ : Shape).BroadcastsInDim ⟨2, ![1, n]⟩ (![1] : Fin 1 → Fin 2))
    (hb2 : (⟨2, ![1, n]⟩ : Shape).BroadcastsInDim ⟨2, ![m, n]⟩ (![0, 1] : Fin 2 → Fin 2)) (a : Fin m) (j : Fin n) :
    addf (Host.dotGeneral (F := Ideal) D none A W)
        (broadcastInDim ⟨2, ![m, n]⟩ (![0, 1] : Fin 2 → Fin 2) hb2 (broadcastInDim ⟨2, ![1, n]⟩ (![1] : Fin 1 → Fin 2) hb1 b)) (ix2 a j)
      = Gnn.Spec.lin (fun c => A (ix2 a c)) (fun c j => W (ix2 c j)) (fun j => b (ix1 j)) j := by
  rw [addf_apply, bcast_1b_ab_apply, bcast_b_1b_apply]
  show FloatOps.dotGeneral D none _ A W (ix2 a j) + _ = _
  rw [Ideal.dotGeneral_apply, plain_sum D hD]
  rfl

end Affine

section Kernel
open Cert.KernelIdeal Cert.KernelIdeal.Gen

theorem pay1_apply (j : S512x256.Idx) : k2_pay1 (F := Ideal) j = 0 := by
  unfold k2_pay1
  simp only [shapeCast_self]
  show Ideal.ofBits .f32 0x00000000#32 = 0
  exact Ideal.ofBits_zero_f32

theorem gid_lanes (gid : IVec S5000x1 32) (n : Fin 5000) (g : Fin 512) :
    broadcastTo S5000x512 gid broadcasts_S5000x1_S5000x512 (ix2 n g) = gid (ix2 n (0 : Fin 1)) := by
  refine broadcastTo_apply gid _ (ix2 n g) (ix2 n (0 : Fin 1)) fun ax => ?_
  match ax with
  | ⟨0, _⟩ => rfl
  | ⟨1, _⟩ => rfl

theorem pay2_apply (gid : Vec Ideal S5000x1 .i32) (h : Vec Ideal S5000x256 .f32) (acc : Vec Ideal S512x256 .f32)
    (g : Fin 512) (d : Fin 256) :
    k2_pay2 (F := Ideal) gid h acc (ix2 g d)
      = acc (ix2 g d) + ∑ n : Fin 5000, if (gid (ix2 n (0 : Fin 1))).toInt = (g.val : ℤ) then h (ix2 n d) else 0 := by
  unfold k2_pay2
  simp only [shapeCast_self]
  rw [addf_apply]
  congr 1
  simp only [matmul]
  rw [Ideal.matmul_constant_zero_apply,
    cols_sum dot_S5000x512_S5000x256_S512x256_0_0_1_1_n_n rfl rfl rfl rfl rfl rfl]
  refine Finset.sum_congr rfl fun n _ => ?_
  rw [truncf_apply, truncf_apply, sitofp_apply, extui_apply]
  show FloatOps.sitofp (F := Ideal) .f32 ((IntOp.cmpi .eq
      (broadcastTo S5000x512 gid broadcasts_S5000x1_S5000x512 (ix2 n g))
      (iota .tc S5000x512 32 [1] iota_S5000x512_d1_w32 (ix2 n g))).setWidth 32) * h (ix2 n d) = _
  rw [gid_lanes, iota_single_apply]
  show FloatOps.sitofp (F := Ideal) .f32 ((IntOp.cmpi .eq (gid (ix2 n (0 : Fin 1))) (BitVec.ofNat 32 g.val)).setWidth 32)
      * h (ix2 n d) = _
  rw [onehot_word]
  split
  · exact one_mul _
  · exact zero_mul _

theorem head_apply (P : Vec Ideal S512x256 .f32) (cnt : Vec Ideal S512x1 .f32) (W1 : Vec Ideal S256x1024 .f32)
    (b1 : Vec Ideal S1x1024 .f32) (W2 : Vec Ideal S1024x512 .f32) (b2 : Vec Ideal S1x512 .f32)
    (W3 : Vec Ideal S512x1 .f32) (b3 : Vec Ideal S1x1 .f32) (g : Fin 512) :
    k2_pay3 (F := Ideal) (k2_pay4 P cnt W1 b1 W2 b2 W3) (k2_pay5 b3) (ix2 g (0 : Fin 1))
      = Gnn.Spec.head (Ideal.ofBits .f32 0x3C23D70A#32) (fun d => Ideal.div (P (ix2 g d)) (cnt (ix2 g 0)))
          (fun k j => W1 (ix2 k j)) (fun j => b1 (ix2 0 j)) (fun k j => W2 (ix2 k j)) (fun j => b2 (ix2 0 j))
          (fun k => W3 (ix2 k 0)) (b3 (ix2 0 0)) := by
  unfold k2_pay3 k2_pay4 k2_pay5
  simp only [shapeCast_self, matmul]
  rw [affine_kernel dot_S512x512_S512x1_S512x1_1_0_0_1_n_n rfl]
  simp only [leaky_kernel, affine_kernel dot_S512x1024_S1024x512_S512x512_1_0_0_1_n_n rfl,
    affine_kernel dot_S512x256_S256x1024_S512x1024_1_0_0_1_n_n rfl, truncf_apply, divf_apply,
    broadcastTo_a1_ab_apply]
  rfl

end Kernel

section Reference
open Cert.ReferenceIdeal Cert.ReferenceIdeal.Facts₀

def refTail (pooled : FVec Ideal S512x256 .f32) (cnt : FVec Ideal S512 .f32) (W1 : FVec Ideal S256x1024 .f32)
    (b1 : FVec Ideal S1024 .f32) (W2 : FVec Ideal S1024x512 .f32) (b2 : FVec Ideal S512 .f32)
    (W3 : FVec Ideal S512x1 .f32) (b3 : FVec Ideal S1 .f32) : FVec Ideal S512 .f32 :=
  have v72 : FVec Ideal S512x1 .f32 := broadcastInDim S512x1 ![0] bcast_S512_S512x1_0 cnt
  have v73 : FVec Ideal S512x256 .f32 := broadcastInDim S512x256 ![0, 1] bcast_S512x1_S512x256_0_1 v72
  have v74 : FVec Ideal S512x256 .f32 := Host.divf pooled v73
  have v75 : FVec Ideal S512x1024 .f32 := Host.dotGeneral dot_S512x256_S256x1024_S512x1024_1_0_0_1_n_n none v74 W1
  have v76 : FVec Ideal S1x1024 .f32 := broadcastInDim S1x1024 ![1] bcast_S1024_S1x1024_1 b1
  have v77 : FVec Ideal S512x1024 .f32 := broadcastInDim S512x1024 ![0, 1] bcast_S1x1024_S512x1024_0_1 v76
  have v78 : FVec Ideal S512x1024 .f32 := addf v75 v77
  have v79 : FVec Ideal S512x1024 .f32 :=
    select (cmpf .oge v78 (broadcastInDim S512x1024 ![] bcast_S_S512x1024 (constant (F := Ideal) S_ .f32 0x00000000#32))) v78
      (mulf (broadcastInDim S512x1024 ![] bcast_S_S512x1024 (id (constant (F := Ideal) S_ .f32 0x3C23D70A#32))) v78)
  have v80 : FVec Ideal S512x512 .f32 := Host.dotGeneral dot_S512x1024_S1024x512_S512x512_1_0_0_1_n_n none v79 W2
  have v81 : FVec Ideal S1x512 .f32 := broadcastInDim S1x512 ![1] bcast_S512_S1x512_1 b2
  have v82 : FVec Ideal S512x512 .f32 := broadcastInDim S512x512 ![0, 1] bcast_S1x512_S512x512_0_1 v81
  have v83 : FVec Ideal S512x512 .f32 := addf v80 v82
  have v84 : FVec Ideal S512x512 .f32 :=
    select (cmpf .oge v83 (broadcastInDim S512x512 ![] bcast_S_S512x512 (constant (F := Ideal) S_ .f32 0x00000000#32))) v83
      (mulf (broadcastInDim S512x512 ![] bcast_S_S512x512 (id (constant (F := Ideal) S_ .f32 0x3C23D70A#32))) v83)
  have v85 : FVec Ideal S512x1 .f32 := Host.dotGeneral dot_S512x512_S512x1_S512x1_1_0_0_1_n_n none v84 W3
  have v86 : FVec Ideal S1x1 .f32 := broadcastInDim S1x1 ![1] bcast_S1_S1x1_1 b3
  have v87 : FVec Ideal S512x1 .f32 := broadcastInDim S512x1 ![0, 1] bcast_S1x1_S512x1_0_1 v86
  have v88 : FVec Ideal S512x1 .f32 := addf v85 v87
  shapeCast S512 v88 shapeCasts_S512x1_S512

theorem refTail_apply (pooled : FVec Ideal S512x256 .f32) (cnt : FVec Ideal S512 .f32) (W1 : FVec Ideal S256x1024 .f32)
    (b1 : FVec Ideal S1024 .f32) (W2 : FVec Ideal S1024x512 .f32) (b2 : FVec Ideal S512 .f32)
    (W3 : FVec Ideal S512x1 .f32) (b3 : FVec Ideal S1 .f32) (g : Fin 512) :
    refTail pooled cnt W1 b1 W2 b2 W3 b3 (ix1 g)
      = Gnn.Spec.head (Ideal.ofBits .f32 0x3C23D70A#32) (fun d => Ideal.div (pooled (ix2 g d)) (cnt (ix1 g)))
          (fun k j => W1 (ix2 k j)) (fun j => b1 (ix1 j)) (fun k j => W2 (ix2 k j)) (fun j => b2 (ix1 j))
          (fun k => W3 (ix2 k 0)) (b3 (ix1 0)) := by
  unfold refTail
  rw [shapeCast_a1_a_apply, affine_ref dot_S512x512_S512x1_S512x1_1_0_0_1_n_n rfl]
  simp only [leaky_ref bcast_S_S512x512, leaky_ref bcast_S_S512x1024,
    affine_ref dot_S512x1024_S1024x512_S512x512_1_0_0_1_n_n rfl,
    affine_ref dot_S512x256_S256x1024_S512x1024_1_0_0_1_n_n rfl, hostDivf_apply,
    bcast_a1_ab_apply, bcast_a_a1_apply]
  rfl

end Reference

end Gnn.PoolHead

end
-- ==== Proof.Val.Pool2.lean ====
import proofs.«414984_j37778532335670_1_alg».proof.Proof.KI.Reg2
import proofs.«414984_j37778532335670_1_alg».proof.Proof.PoolHead
import proofs.«414984_j37778532335670_1_alg».proof.Proof.Spec
import Idealize.ShloMosaic.Lib.Pipeline.Value
import Idealize.ShloMosaic.Lib.ValueIdx
import Mathlib.Logic.Equiv.Fin.Basic
import Mathlib.Algebra.BigOperators.Fin

noncomputable section

namespace Gnn.Pool2

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

def row (t : ℕ) (ht : t < 10) (j : Fin 5000) : Fin 50000 := ⟨5000 * t + j.val, by omega⟩

def tile (c : Dev nD) (g : Fin 512) (d : Fin 256) (t : ℕ) (ht : t < 10) : EReal :=
  ∑ j : Fin 5000, if ((V c main_v53 : S50000x1.Idx → _) (ix2 (row t ht j) (0 : Fin 1))).toInt = (g.val : ℤ)
    then (V c main_v46 : S50000x256.Idx → EReal) (ix2 (row t ht j) d) else 0

theorem feat_apply (c : Dev nD) (t : Fin cfg2.N) (ht : t.val < 10) (j : Fin 5000) (d : Fin 256) :
    iblk2 V c 0 t (ix2 j d) = (V c main_v46 : S50000x256.Idx → EReal) (ix2 (row t.val ht j) d) := by
  obtain ⟨e00, e01, e10, e11, e20, e21, e30, e31, e40, e41, e50, e51, e60, e61, e70, e71, e80, e81, e90, e91⟩ := idx_facts2 t
  show V c main_v46 (((cfg2.win 0).blk t).view.emb (ix2 j d)) = V c main_v46 (ix2 (row t.val ht j) d)
  refine congrArg (V c main_v46) (funext fun a => Fin.ext ?_)
  match a with
  | ⟨0, _⟩ => show win2_0.index t (0 : Fin 2) * 5000 + 1 * j.val = 5000 * t.val + j.val; omega
  | ⟨1, _⟩ => show win2_0.index t (1 : Fin 2) * 256 + 1 * d.val = d.val; omega

theorem gid_apply (c : Dev nD) (t : Fin cfg2.N) (ht : t.val < 10) (j : Fin 5000) :
    iblk2 V c 1 t (ix2 j (0 : Fin 1)) = (V c main_v53 : S50000x1.Idx → _) (ix2 (row t.val ht j) (0 : Fin 1)) := by
  obtain ⟨e00, e01, e10, e11, e20, e21, e30, e31, e40, e41, e50, e51, e60, e61, e70, e71, e80, e81, e90, e91⟩ := idx_facts2 t
  show V c main_v53 (((cfg2.win 1).blk t).view.emb (ix2 j (0 : Fin 1))) = V c main_v53 (ix2 (row t.val ht j) (0 : Fin 1))
  refine congrArg (V c main_v53) (funext fun a => Fin.ext ?_)
  match a with
  | ⟨0, _⟩ => show win2_1.index t (0 : Fin 2) * 5000 + 1 * j.val = 5000 * t.val + j.val; omega
  | ⟨1, _⟩ => show win2_1.index t (1 : Fin 2) * 1 + 1 * 0 = 0; omega

theorem zero2_apply (j : S512x256.Idx) : zero2 (F := Ideal) j = 0 := by
  unfold zero2
  rw [View.canon_unit_zero hz, Gnn.PoolHead.pay1_apply]

theorem tile_of_blocks (c : Dev nD) (t : ℕ) (ht : t < 10) (x1 : Vec Ideal S5000x1 .i32) (x0 : Vec Ideal S5000x256 .f32)
    (h1 : ∀ j : Fin 5000, x1 (ix2 j (0 : Fin 1)) = (V c main_v53 : S50000x1.Idx → _) (ix2 (row t ht j) (0 : Fin 1)))
    (h0 : ∀ (j : Fin 5000) (d : Fin 256), x0 (ix2 j d) = (V c main_v46 : S50000x256.Idx → EReal) (ix2 (row t ht j) d))
    (g : Fin 512) (d : Fin 256) :
    (∑ n : Fin 5000, if (x1 (ix2 n (0 : Fin 1))).toInt = (g.val : ℤ) then x0 (ix2 n d) else 0) = tile V c g d t ht := by
  unfold tile
  refine Finset.sum_congr rfl fun j _ => ?_
  rw [h1, h0]

theorem acc_step (c : Dev nD) (t : Fin cfg2.N) (ht : t.val < 10) (s : Vec Ideal S512x256 .f32) (g : Fin 512) (d : Fin 256) :
    acc2 (iblk2 V c 0 t) (iblk2 V c 1 t) s (ix2 g d) = s (ix2 g d) + tile V c g d t.val ht := by
  unfold acc2
  rw [View.canon_unit_zero hz, Gnn.PoolHead.pay2_apply,
    tile_of_blocks V c t.val ht _ _ (gid_apply V c t ht) (feat_apply V c t ht)]

theorem acc_apply (c : Dev nD) (n : ℕ) (hn : n < cfg2.N) (g : Fin 512) (d : Fin 256) :
    accAt2 V c n hn (ix2 g d) = ∑ t : Fin (n + 1), tile V c g d t.val (by have h10 : cfg2.N = 10 := N_2; have := t.isLt; omega) := by
  have h10 : cfg2.N = 10 := N_2
  induction n with
  | zero =>
    rw [accAt2_zero, acc_step V c ⟨0, hn⟩ (by omega), zero2_apply, zero_add, Fin.sum_univ_castSucc]
    simp only [Finset.univ_eq_empty, Finset.sum_empty, zero_add]
    rfl
  | succ n ih =>
    rw [accAt2_succ, acc_step V c ⟨n + 1, hn⟩ (by show n + 1 < 10; omega), ih, Fin.sum_univ_castSucc (n := n + 1)]
    rfl

theorem pooled_eq (c : Dev nD) (h9 : 9 < cfg2.N) (g : Fin 512) (d : Fin 256) :
    accAt2 V c 9 h9 (ix2 g d)
      = Gnn.Spec.pooled (fun e : Fin 50000 => ((V c main_v53 : S50000x1.Idx → _) (ix2 e (0 : Fin 1))).toInt)
          (fun e : Fin 50000 => (V c main_v46 : S50000x256.Idx → EReal) (ix2 e d)) (g.val : ℤ) := by
  rw [acc_apply]
  unfold Gnn.Spec.pooled tile
  let Fn : Fin 50000 → EReal := fun e => if ((V c main_v53 : S50000x1.Idx → _) (ix2 e (0 : Fin 1))).toInt = (g.val : ℤ)
    then (V c main_v46 : S50000x256.Idx → EReal) (ix2 e d) else 0
  symm
  calc ∑ e : Fin 50000, Fn e = ∑ p : Fin 10 × Fin 5000, Fn (finProdFinEquiv p) := ((finProdFinEquiv (m := 10) (n := 5000)).sum_comp Fn).symm
    _ = ∑ t : Fin 10, ∑ j : Fin 5000, Fn (finProdFinEquiv (t, j)) := Fintype.sum_prod_type _
    _ = _ := Finset.sum_congr rfl fun t _ => Finset.sum_congr rfl fun j _ => by
      have hr : (finProdFinEquiv (t, j) : Fin 50000) = row t.val t.isLt j :=
        Fin.ext (by show j.val + 5000 * t.val = 5000 * t.val + j.val; omega)
      rw [hr]

theorem pooled_at (c : Dev nD) (t : Fin cfg2.N) (h9 : t.val = 9) (g : Fin 512) (d : Fin 256) :
    accAt2 V c t.val t.isLt (ix2 g d)
      = Gnn.Spec.pooled (fun e : Fin 50000 => ((V c main_v53 : S50000x1.Idx → _) (ix2 e (0 : Fin 1))).toInt)
          (fun e : Fin 50000 => (V c main_v46 : S50000x256.Idx → EReal) (ix2 e d)) (g.val : ℤ) := by
  obtain ⟨n, hn⟩ := t
  dsimp only at h9
  subst h9
  exact pooled_eq V c hn g d

theorem whole2_2 (c : Dev nD) (t : Fin cfg2.N) : (iblk2 V c 2 t : S512x1.Idx → EReal) = V c main_v52 := funext fun x => by
  obtain ⟨e00, e01, e10, e11, e20, e21, e30, e31, e40, e41, e50, e51, e60, e61, e70, e71, e80, e81, e90, e91⟩ := idx_facts2 t
  show V c main_v52 (((cfg2.win 2).blk t).view.emb x) = V c main_v52 x
  refine congrArg (V c main_v52) (funext fun a => Fin.ext ?_)
  match a with
  | ⟨0, _⟩ => show win2_2.index t (0 : Fin 2) * 512 + 1 * (x 0).val = (x 0).val; omega
  | ⟨1, _⟩ => show win2_2.index t (1 : Fin 2) * 1 + 1 * (x 1).val = (x 1).val; omega
theorem whole2_3 (c : Dev nD) (t : Fin cfg2.N) : (iblk2 V c 3 t : S256x1024.Idx → EReal) = V c main_arg8 := funext fun x => by
  obtain ⟨e00, e01, e10, e11, e20, e21, e30, e31, e40, e41, e50, e51, e60, e61, e70, e71, e80, e81, e90, e91⟩ := idx_facts2 t
  show V c main_arg8 (((cfg2.win 3).blk t).view.emb x) = V c main_arg8 x
  refine congrArg (V c main_arg8) (funext fun a => Fin.ext ?_)
  match a with
  | ⟨0, _⟩ => show win2_3.index t (0 : Fin 2) * 256 + 1 * (x 0).val = (x 0).val; omega
  | ⟨1, _⟩ => show win2_3.index t (1 : Fin 2) * 1024 + 1 * (x 1).val = (x 1).val; omega
theorem whole2_4 (c : Dev nD) (t : Fin cfg2.N) : (iblk2 V c 4 t : S1x1024.Idx → EReal) = V c main_v54 := funext fun x => by
  obtain ⟨e00, e01, e10, e11, e20, e21, e30, e31, e40, e41, e50, e51, e60, e61, e70, e71, e80, e81, e90, e91⟩ := idx_facts2 t
  show V c main_v54 (((cfg2.win 4).blk t).view.emb x) = V c main_v54 x
  refine congrArg (V c main_v54) (funext fun a => Fin.ext ?_)
  match a with
  | ⟨0, _⟩ => show win2_4.index t (0 : Fin 2) * 1 + 1 * (x 0).val = (x 0).val; omega
  | ⟨1, _⟩ => show win2_4.index t (1 : Fin 2) * 1024 + 1 * (x 1).val = (x 1).val; omega
theorem whole2_5 (c : Dev nD) (t : Fin cfg2.N) : (iblk2 V c 5 t : S1024x512.Idx → EReal) = V c main_arg10 := funext fun x => by
  obtain ⟨e00, e01, e10, e11, e20, e21, e30, e31, e40, e41, e50, e51, e60, e61, e70, e71, e80, e81, e90, e91⟩ := idx_facts2 t
  show V c main_arg10 (((cfg2.win 5).blk t).view.emb x) = V c main_arg10 x
  refine congrArg (V c main_arg10) (funext fun a => Fin.ext ?_)
  match a with
  | ⟨0, _⟩ => show win2_5.index t (0 : Fin 2) * 1024 + 1 * (x 0).val = (x 0).val; omega
  | ⟨1, _⟩ => show win2_5.index t (1 : Fin 2) * 512 + 1 * (x 1).val = (x 1).val; omega
theorem whole2_6 (c : Dev nD) (t : Fin cfg2.N) : (iblk2 V c 6 t : S1x512.Idx → EReal) = V c main_v55 := funext fun x => by
  obtain ⟨e00, e01, e10, e11, e20, e21, e30, e31, e40, e41, e50, e51, e60, e61, e70, e71, e80, e81, e90, e91⟩ := idx_facts2 t
  show V c main_v55 (((cfg2.win 6).blk t).view.emb x) = V c main_v55 x
  refine congrArg (V c main_v55) (funext fun a => Fin.ext ?_)
  match a with
  | ⟨0, _⟩ => show win2_6.index t (0 : Fin 2) * 1 + 1 * (x 0).val = (x 0).val; omega
  | ⟨1, _⟩ => show win2_6.index t (1 : Fin 2) * 512 + 1 * (x 1).val = (x 1).val; omega
theorem whole2_7 (c : Dev nD) (t : Fin cfg2.N) : (iblk2 V c 7 t : S512x1.Idx → EReal) = V c main_arg12 := funext fun x => by
  obtain ⟨e00, e01, e10, e11, e20, e21, e30, e31, e40, e41, e50, e51, e60, e61, e70, e71, e80, e81, e90, e91⟩ := idx_facts2 t
  show V c main_arg12 (((cfg2.win 7).blk t).view.emb x) = V c main_arg12 x
  refine congrArg (V c main_arg12) (funext fun a => Fin.ext ?_)
  match a with
  | ⟨0, _⟩ => show win2_7.index t (0 : Fin 2) * 512 + 1 * (x 0).val = (x 0).val; omega
  | ⟨1, _⟩ => show win2_7.index t (1 : Fin 2) * 1 + 1 * (x 1).val = (x 1).val; omega
theorem whole2_8 (c : Dev nD) (t : Fin cfg2.N) : (iblk2 V c 8 t : S1x1.Idx → EReal) = V c main_v56 := funext fun x => by
  obtain ⟨e00, e01, e10, e11, e20, e21, e30, e31, e40, e41, e50, e51, e60, e61, e70, e71, e80, e81, e90, e91⟩ := idx_facts2 t
  show V c main_v56 (((cfg2.win 8).blk t).view.emb x) = V c main_v56 x
  refine congrArg (V c main_v56) (funext fun a => Fin.ext ?_)
  match a with
  | ⟨0, _⟩ => show win2_8.index t (0 : Fin 2) * 1 + 1 * (x 0).val = (x 0).val; omega
  | ⟨1, _⟩ => show win2_8.index t (1 : Fin 2) * 1 + 1 * (x 1).val = (x 1).val; omega

def G2 (c : Dev nD) : S512x1.Idx → EReal := fun idx =>
  Gnn.Spec.head (Ideal.ofBits .f32 0x3C23D70A#32)
    (fun d => Ideal.div
      (Gnn.Spec.pooled (fun e : Fin 50000 => ((V c main_v53 : S50000x1.Idx → _) (ix2 e (0 : Fin 1))).toInt)
        (fun e : Fin 50000 => (V c main_v46 : S50000x256.Idx → EReal) (ix2 e d)) (((idx 0 : Fin 512).val : ℕ) : ℤ))
      ((V c main_v52 : S512x1.Idx → EReal) (ix2 (idx 0 : Fin 512) (0 : Fin 1))))
    (fun k j => (V c main_arg8 : S256x1024.Idx → EReal) (ix2 k j)) (fun j => (V c main_v54 : S1x1024.Idx → EReal) (ix2 (0 : Fin 1) j))
    (fun k j => (V c main_arg10 : S1024x512.Idx → EReal) (ix2 k j)) (fun j => (V c main_v55 : S1x512.Idx → EReal) (ix2 (0 : Fin 1) j))
    (fun k => (V c main_arg12 : S512x1.Idx → EReal) (ix2 k (0 : Fin 1))) ((V c main_v56 : S1x1.Idx → EReal) (ix2 (0 : Fin 1) (0 : Fin 1)))

theorem flushed2_eq (c : Dev nD) (t : Fin cfg2.N) (hf : (cfg2.win 9).flush t = true) :
    (dat2 V c).flushed 9 t = ((cfg2.win 9).blk t).view.read (Elt Ideal) (G2 V c) := by
  have h9 : t.val = 9 := by
    have h := (flush2_9 t).mp hf; have hlt := t.isLt; have h10 : cfg2.N = 10 := N_2; omega
  obtain ⟨e00, e01, e10, e11, e20, e21, e30, e31, e40, e41, e50, e51, e60, e61, e70, e71, e80, e81, e90, e91⟩ := idx_facts2 t
  show (cfg2.win 9).cut (grid2.coords t) ((dat2 V c).after 9 t) = _
  rw [after2_9]
  unfold outAt2
  rw [whole2_2, whole2_3, whole2_4, whole2_5, whole2_6, whole2_7, whole2_8]
  unfold out2
  rw [View.canon_unit_zero hz]
  funext j
  obtain ⟨g, z, rfl⟩ : ∃ (g : Fin 512) (z : Fin 1), j = ix2 g z := ⟨j 0, j 1, eq_ix2 j⟩
  obtain rfl : z = 0 := Subsingleton.elim _ _
  refine (Gnn.PoolHead.head_apply _ _ _ _ _ _ _ _ g).trans ?_
  simp only [pooled_at V c t h9]
  have hemb : ((cfg2.win 9).blk t).view.emb (ix2 g (0 : Fin 1)) = ix2 g (0 : Fin 1) := funext fun a => Fin.ext (by
    match a with
    | ⟨0, _⟩ => show win2_9.index t (0 : Fin 2) * 512 + 1 * g.val = g.val; omega
    | ⟨1, _⟩ => show win2_9.index t (1 : Fin 2) * 1 + 1 * 0 = 0; omega)
  show _ = G2 V c (((cfg2.win 9).blk t).view.emb (ix2 g (0 : Fin 1)))
  rw [hemb]
  rfl

theorem mem_blk2 (t : Fin cfg2.N) (i : S512x1.Idx) :
    i ∈ ((cfg2.win 9).blk t).view.set ↔ ∀ a : Fin 2, win2_9.index t a * S512x1.size a ≤ (i a).val ∧ (i a).val < win2_9.index t a * S512x1.size a + S512x1.size a := by
  show i ∈ ((View.whole main_v57).slice (win2_9.rect t)).set ↔ _
  rw [View.set_slice_whole, Rect.mem_set_unit]
  exact Iff.rfl

theorem cover2 (i : S512x1.Idx) : ∃ t : Fin cfg2.N, (cfg2.win 9).flush t = true ∧ i ∈ ((cfg2.win 9).blk t).view.set := by
  have hi0 : (i 0).val < 512 := (i 0).isLt
  have hi1 : (i 1).val < 1 := (i 1).isLt
  have hN : cfg2.N = 10 := N_2
  let t : Fin cfg2.N := ⟨9, by rw [hN]; omega⟩
  obtain ⟨e00, e01, e10, e11, e20, e21, e30, e31, e40, e41, e50, e51, e60, e61, e70, e71, e80, e81, e90, e91⟩ := idx_facts2 t
  refine ⟨t, (flush2_9 t).mpr rfl, ?_⟩
  rw [mem_blk2]
  intro a
  match a with
  | ⟨0, _⟩ => show win2_9.index t (0 : Fin 2) * 512 ≤ (i 0).val ∧ (i 0).val < win2_9.index t (0 : Fin 2) * 512 + 512; omega
  | ⟨1, _⟩ => show win2_9.index t (1 : Fin 2) * 1 ≤ (i 1).val ∧ (i 1).val < win2_9.index t (1 : Fin 2) * 1 + 1; omega

theorem final2_arr (c : Dev nD) : (dat2 V c).arrAt 9 cfg2.N = G2 V c :=
  (dat2 V c).arrAt_eq_of_cover 9 (G2 V c) (fun t hf => flushed2_eq V c t hf) cover2

theorem final2 (c : Dev nD) (g : Fin 512) :
    (dat2 V c).arrAt 9 cfg2.N (ix2 g (0 : Fin 1))
      = Gnn.Spec.head (Ideal.ofBits .f32 0x3C23D70A#32)
          (fun d => Ideal.div
            (Gnn.Spec.pooled (fun e : Fin 50000 => ((V c main_v53 : S50000x1.Idx → _) (ix2 e (0 : Fin 1))).toInt)
              (fun e : Fin 50000 => (V c main_v46 : S50000x256.Idx → EReal) (ix2 e d)) (g.val : ℤ))
            ((V c main_v52 : S512x1.Idx → EReal) (ix2 g (0 : Fin 1))))
          (fun k j => (V c main_arg8 : S256x1024.Idx → EReal) (ix2 k j)) (fun j => (V c main_v54 : S1x1024.Idx → EReal) (ix2 (0 : Fin 1) j))
          (fun k j => (V c main_arg10 : S1024x512.Idx → EReal) (ix2 k j)) (fun j => (V c main_v55 : S1x512.Idx → EReal) (ix2 (0 : Fin 1) j))
          (fun k => (V c main_arg12 : S512x1.Idx → EReal) (ix2 k (0 : Fin 1))) ((V c main_v56 : S1x1.Idx → EReal) (ix2 (0 : Fin 1) (0 : Fin 1))) := by
  rw [final2_arr]
  rfl

end Gnn.Pool2

end
-- ==== Proof.RefRead.lean ====
import proofs.«414984_j37778532335670_1_alg».proof.Proof.RefRun
import proofs.«414984_j37778532335670_1_alg».proof.Proof.LinRelu
import proofs.«414984_j37778532335670_1_alg».proof.Proof.PoolHead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

def refDeg (idx : Vec F S800000 .i32) : Vec F S50000 .f32 :=
  maximumf (broadcastInDim S50000 ![] bcast_S_S50000 (id (constant (F := F) S_ .f32 0x3F800000#32)))
    (Host.scatterAdd scatter_S50000_S800000x1_S800000_n_0_0_1
      (broadcastInDim S50000 ![] bcast_S_S50000 (constant (F := F) S_ .f32 0x00000000#32))
      (broadcastInDim S800000x1 ![0] bcast_S800000_S800000x1_0 idx)
      (broadcastInDim S800000 ![] bcast_S_S800000 (constant (F := F) S_ .f32 0x3F800000#32)))

def refWrap (idx : Vec F S800000 .i32) : Vec F S800000 .i32 :=
  select (cmpi .slt idx (broadcastInDim S800000 ![] bcast_S_S800000 (constantI S_ 32 0#32)))
    (addi idx (broadcastInDim S800000 ![] bcast_S_S800000 (constantI S_ 32 50000#32))) idx

def refAggr74 (x : Vec F S50000x74 .f32) (src dst : Vec F S800000 .i32) : Vec F S50000x74 .f32 :=
  mulf
    (Host.scatterAdd scatter_S50000x74_S800000x1_S800000x74_1_0_0_1
      (broadcastInDim S50000x74 ![] bcast_S_S50000x74 (constant (F := F) S_ .f32 0x00000000#32))
      (broadcastInDim S800000x1 ![0] bcast_S800000_S800000x1_0 dst)
      (Host.gather gather_S50000x74_S800000x1_S800000x74_1_0_n_n_0_1_174
        (mulf x (broadcastInDim S50000x74 ![0, 1] bcast_S50000x1_S50000x74_0_1
          (broadcastInDim S50000x1 ![0] bcast_S50000_S50000x1_0 (Host.rsqrt (refDeg src)))))
        (broadcastInDim S800000x1 ![0] bcast_S800000_S800000x1_0 (refWrap src))))
    (broadcastInDim S50000x74 ![0, 1] bcast_S50000x1_S50000x74_0_1
      (broadcastInDim S50000x1 ![0] bcast_S50000_S50000x1_0 (Host.rsqrt (refDeg dst))))

def refAggr256 (h : Vec F S50000x256 .f32) (src dst : Vec F S800000 .i32) : Vec F S50000x256 .f32 :=
  mulf
    (Host.scatterAdd scatter_S50000x256_S800000x1_S800000x256_1_0_0_1
      (broadcastInDim S50000x256 ![] bcast_S_S50000x256 (constant (F := F) S_ .f32 0x00000000#32))
      (broadcastInDim S800000x1 ![0] bcast_S800000_S800000x1_0 dst)
      (Host.gather gather_S50000x256_S800000x1_S800000x256_1_0_n_n_0_1_1256
        (mulf h (broadcastInDim S50000x256 ![0, 1] bcast_S50000x1_S50000x256_0_1
          (broadcastInDim S50000x1 ![0] bcast_S50000_S50000x1_0 (Host.rsqrt (refDeg src)))))
        (broadcastInDim S800000x1 ![0] bcast_S800000_S800000x1_0 (refWrap src))))
    (broadcastInDim S50000x256 ![0, 1] bcast_S50000x1_S50000x256_0_1
      (broadcastInDim S50000x1 ![0] bcast_S50000_S50000x1_0 (Host.rsqrt (refDeg dst))))

def refCnt (gid : Vec F S50000 .i32) : Vec F S512 .f32 :=
  maximumf (broadcastInDim S512 ![] bcast_S_S512 (id (constant (F := F) S_ .f32 0x3F800000#32)))
    (Host.scatterAdd scatter_S512_S50000x1_S50000_n_0_0_1
      (broadcastInDim S512 ![] bcast_S_S512 (constant (F := F) S_ .f32 0x00000000#32))
      (broadcastInDim S50000x1 ![0] bcast_S50000_S50000x1_0 gid)
      (broadcastInDim S50000 ![] bcast_S_S50000 (constant (F := F) S_ .f32 0x3F800000#32)))

def refPooled (h : Vec F S50000x256 .f32) (gid : Vec F S50000 .i32) : Vec F S512x256 .f32 :=
  Host.scatterAdd scatter_S512x256_S50000x1_S50000x256_1_0_0_1
    (broadcastInDim S512x256 ![] bcast_S_S512x256 (constant (F := F) S_ .f32 0x00000000#32))
    (broadcastInDim S50000x1 ![0] bcast_S50000_S50000x1_0 gid) h

def ops1 : List (HloOp τ sig (Elt F)) := ops_part0.take 39
def ops2 : List (HloOp τ sig (Elt F)) := (ops_part0.drop 39).take 7
def ops3 : List (HloOp τ sig (Elt F)) := ops_part0.drop 46 ++ ops_part1.take 15
def ops4 : List (HloOp τ sig (Elt F)) := (ops_part1.drop 15).take 7
def ops5 : List (HloOp τ sig (Elt F)) := (ops_part1.drop 22).take 10
def ops6 : List (HloOp τ sig (Elt F)) := (ops_part1.drop 32).take 4
def ops7 : List (HloOp τ sig (Elt F)) := ops_part1.drop 36

theorem ops_split : (ops : List (HloOp τ sig (Elt F))) = ops1 ++ (ops2 ++ (ops3 ++ (ops4 ++ (ops5 ++ (ops6 ++ ops7))))) := rfl

set_option maxRecDepth 8192 in
theorem ops1_writes :
    (ops1 : List (HloOp τ sig (Elt F))).Forall fun op => op.writes ⊆ (W1.map (Proc.devRef (τ := τ) .tc)).toFinset := by
  dsimp only [ops1, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep1 (V : Valuation τ sig (Elt F)) (r : Ref sig .tc) (h : r ∉ W1) :
    after ops1 V (no_index (Proc.devRef .tc r)) = V (Proc.devRef .tc r) :=
  after_of_writes_sub ops1 V ops1_writes h

set_option maxRecDepth 8192 in
theorem ops2_writes :
    (ops2 : List (HloOp τ sig (Elt F))).Forall fun op => op.writes ⊆ (W2.map (Proc.devRef (τ := τ) .tc)).toFinset := by
  dsimp only [ops2, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep2 (V : Valuation τ sig (Elt F)) (r : Ref sig .tc) (h : r ∉ W2) :
    after ops2 V (no_index (Proc.devRef .tc r)) = V (Proc.devRef .tc r) :=
  after_of_writes_sub ops2 V ops2_writes h

set_option maxRecDepth 8192 in
theorem ops3_writes :
    (ops3 : List (HloOp τ sig (Elt F))).Forall fun op => op.writes ⊆ (W3.map (Proc.devRef (τ := τ) .tc)).toFinset := by
  dsimp only [ops3, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep3 (V : Valuation τ sig (Elt F)) (r : Ref sig .tc) (h : r ∉ W3) :
    after ops3 V (no_index (Proc.devRef .tc r)) = V (Proc.devRef .tc r) :=
  after_of_writes_sub ops3 V ops3_writes h

set_option maxRecDepth 8192 in
theorem ops4_writes :
    (ops4 : List (HloOp τ sig (Elt F))).Forall fun op => op.writes ⊆ (W4.map (Proc.devRef (τ := τ) .tc)).toFinset := by
  dsimp only [ops4, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep4 (V : Valuation τ sig (Elt F)) (r : Ref sig .tc) (h : r ∉ W4) :
    after ops4 V (no_index (Proc.devRef .tc r)) = V (Proc.devRef .tc r) :=
  after_of_writes_sub ops4 V ops4_writes h

set_option maxRecDepth 8192 in
theorem ops5_writes :
    (ops5 : List (HloOp τ sig (Elt F))).Forall fun op => op.writes ⊆ (W5.map (Proc.devRef (τ := τ) .tc)).toFinset := by
  dsimp only [ops5, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep5 (V : Valuation τ sig (Elt F)) (r : Ref sig .tc) (h : r ∉ W5) :
    after ops5 V (no_index (Proc.devRef .tc r)) = V (Proc.devRef .tc r) :=
  after_of_writes_sub ops5 V ops5_writes h

set_option maxRecDepth 8192 in
theorem ops6_writes :
    (ops6 : List (HloOp τ sig (Elt F))).Forall fun op => op.writes ⊆ (W6.map (Proc.devRef (τ := τ) .tc)).toFinset := by
  dsimp only [ops6, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep6 (V : Valuation τ sig (Elt F)) (r : Ref sig .tc) (h : r ∉ W6) :
    after ops6 V (no_index (Proc.devRef .tc r)) = V (Proc.devRef .tc r) :=
  after_of_writes_sub ops6 V ops6_writes h

set_option maxRecDepth 8192 in
theorem ops7_writes :
    (ops7 : List (HloOp τ sig (Elt F))).Forall fun op => op.writes ⊆ (W7.map (Proc.devRef (τ := τ) .tc)).toFinset := by
  dsimp only [ops7, ops_part0, ops_part1, List.take, List.drop, List.cons_append, List.nil_append]
  simp only [List.Forall, nullary_writes, unary_writes, binary_writes, ternary_writes, reshape_writes,
    Finset.singleton_subset_iff, List.mem_toFinset]
  and_intros <;> exact List.mem_map_of_mem (by decide)
theorem keep7 (V : Valuation τ sig (Elt F)) (r : Ref sig .tc) (h : r ∉ W7) :
    after ops7 V (no_index (Proc.devRef .tc r)) = V (Proc.devRef .tc r) :=
  after_of_writes_sub ops7 V ops7_writes h

set_option maxRecDepth 8192 in
theorem st1 (V : Valuation τ sig (Elt F)) :
    after ops1 V (no_index (Proc.devRef .tc main_v26))
      = refAggr74 (V (Proc.devRef .tc main_arg0)) (V (Proc.devRef .tc main_arg1)) (V (Proc.devRef .tc main_arg2)) := by
  dsimp only [ops1, ops_part0, ops_part1, List.take, List.drop, List.cons_append, List.nil_append]
  after_results_simp
  rfl

set_option maxRecDepth 8192 in
theorem st3 (V : Valuation τ sig (Elt F)) :
    after ops3 V (no_index (Proc.devRef .tc main_v58))
      = refAggr256 (V (Proc.devRef .tc main_v31)) (V (Proc.devRef .tc main_arg1)) (V (Proc.devRef .tc main_arg2)) := by
  dsimp only [ops3, ops_part0, ops_part1, List.take, List.drop, List.cons_append, List.nil_append]
  after_results_simp
  rfl

set_option maxRecDepth 8192 in
theorem st5 (V : Valuation τ sig (Elt F)) :
    after ops5 V (no_index (Proc.devRef .tc main_v68)) = refCnt (V (Proc.devRef .tc main_arg3)) := by
  dsimp only [ops5, ops_part0, ops_part1, List.take, List.drop, List.cons_append, List.nil_append]
  after_results_simp
  rfl

set_option maxRecDepth 8192 in
theorem st6 (V : Valuation τ sig (Elt F)) :
    after ops6 V (no_index (Proc.devRef .tc main_v71))
      = refPooled (V (Proc.devRef .tc main_v63)) (V (Proc.devRef .tc main_arg3)) := by
  dsimp only [ops6, ops_part0, ops_part1, List.take, List.drop, List.cons_append, List.nil_append]
  after_results_simp
  rfl

set_option maxRecDepth 8192 in
theorem st2 (V : Valuation τ sig (Elt Ideal)) :
    after ops2 V (no_index (Proc.devRef .tc main_v31))
      = Gnn.LinRelu.refLayer0 (V (Proc.devRef .tc main_v26)) (V (Proc.devRef .tc main_arg4)) (V (Proc.devRef .tc main_arg5)) := by
  dsimp only [ops2, ops_part0, ops_part1, List.take, List.drop, List.cons_append, List.nil_append]
  after_results_simp
  rfl

set_option maxRecDepth 8192 in
theorem st4 (V : Valuation τ sig (Elt Ideal)) :
    after ops4 V (no_index (Proc.devRef .tc main_v63))
      = Gnn.LinRelu.refLayer1 (V (Proc.devRef .tc main_v58)) (V (Proc.devRef .tc main_arg6)) (V (Proc.devRef .tc main_arg7)) := by
  dsimp only [ops4, ops_part0, ops_part1, List.take, List.drop, List.cons_append, List.nil_append]
  after_results_simp
  rfl

set_option maxRecDepth 8192 in
theorem st7 (V : Valuation τ sig (Elt Ideal)) :
    after ops7 V (no_index (Proc.devRef .tc main_v89))
      = Gnn.PoolHead.refTail (V (Proc.devRef .tc main_v71)) (V (Proc.devRef .tc main_v68))
          (V (Proc.devRef .tc main_arg8)) (V (Proc.devRef .tc main_arg9)) (V (Proc.devRef .tc main_arg10))
          (V (Proc.devRef .tc main_arg11)) (V (Proc.devRef .tc main_arg12)) (V (Proc.devRef .tc main_arg13)) := by
  dsimp only [ops7, ops_part0, ops_part1, List.take, List.drop, List.cons_append, List.nil_append]
  after_results_simp
  rfl

theorem res_eq (m : (ℓ : Loc nD τ sig) → Buf (Elt Ideal) ℓ) (c : Dev nD) :
    res m c
      = Gnn.PoolHead.refTail
          (refPooled
            (Gnn.LinRelu.refLayer1
              (refAggr256
                (Gnn.LinRelu.refLayer0 (refAggr74 (m ((c.tc : Thread nD τ).loc main_arg0)) (m ((c.tc : Thread nD τ).loc main_arg1)) (m ((c.tc : Thread nD τ).loc main_arg2)))
                  (m ((c.tc : Thread nD τ).loc main_arg4)) (m ((c.tc : Thread nD τ).loc main_arg5)))
                (m ((c.tc : Thread nD τ).loc main_arg1)) (m ((c.tc : Thread nD τ).loc main_arg2)))
              (m ((c.tc : Thread nD τ).loc main_arg6)) (m ((c.tc : Thread nD τ).loc main_arg7)))
            (m ((c.tc : Thread nD τ).loc main_arg3)))
          (refCnt (m ((c.tc : Thread nD τ).loc main_arg3)))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold res
  rw [ops_split]
  simp (disch := decide) only [after_app, keep1, keep2, keep3, keep4, keep5, keep6, keep7, st1, st2, st3, st4, st5, st6, st7]

end Cert.ReferenceIdeal.HandRun

end
-- ==== Proof.Val.HeadBridge.lean ====
import proofs.«414984_j37778532335670_1_alg».proof.Proof.Val.Pool2
import proofs.«414984_j37778532335670_1_alg».proof.Proof.KI.Reg2
import proofs.«414984_j37778532335670_1_alg».proof.Proof.PoolHead
import proofs.«414984_j37778532335670_1_alg».proof.Proof.LibRows
import proofs.«414984_j37778532335670_1_alg».proof.Proof.RefRead
import Idealize.ShloMosaic.Lib.ValueLayout
import Idealize.ShloMosaic.Lib.Pipeline.Value

noncomputable section

namespace Gnn.HeadBridge

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

theorem refPooled_apply (h : FVec Ideal Cert.ReferenceIdeal.S50000x256 .f32) (gid : IVec Cert.ReferenceIdeal.S50000 32)
    (g : Fin 512) (d : Fin 256) :
    Cert.ReferenceIdeal.HandRun.refPooled (F := Ideal) h gid (ix2 g d)
      = Gnn.Spec.pooled (fun e : Fin 50000 => (gid (ix1 e)).toInt) (fun e => h (ix2 e d)) (g.val : ℤ) := by
  unfold Cert.ReferenceIdeal.HandRun.refPooled Gnn.Spec.pooled
  show Ideal.hostScatterAdd Cert.ReferenceIdeal.scatter_S512x256_S50000x1_S50000x256_1_0_0_1 _ _ h (ix2 g d) = _
  rw [Gcn.Rows.scatterAdd_rows _ rfl rfl rfl rfl, Gnn.PoolHead.bcast_scalar_apply]
  show Ideal.ofBits .f32 0x00000000#32 + _ = _
  rw [Ideal.ofBits_zero_f32, zero_add]
  refine Finset.sum_congr rfl fun e _ => ?_
  rw [Gnn.PoolHead.bcast_a_a1_apply]

theorem head2 (c : Dev nD) (h2 : FVec Ideal Cert.ReferenceIdeal.S50000x256 .f32) (gid : IVec Cert.ReferenceIdeal.S50000 32)
    (cnt : FVec Ideal Cert.ReferenceIdeal.S512 .f32) (Wm1 : FVec Ideal Cert.ReferenceIdeal.S256x1024 .f32)
    (bm1 : FVec Ideal Cert.ReferenceIdeal.S1024 .f32) (Wm2 : FVec Ideal Cert.ReferenceIdeal.S1024x512 .f32)
    (bm2 : FVec Ideal Cert.ReferenceIdeal.S512 .f32) (Wm3 : FVec Ideal Cert.ReferenceIdeal.S512x1 .f32)
    (bm3 : FVec Ideal Cert.ReferenceIdeal.S1 .f32)
    (hh : (V c main_v46 : S50000x256.Idx → EReal) = h2)
    (hg : (V c main_v53 : S50000x1.Idx → BitVec 32) = shapeCast S50000x1 gid shapeCasts_S50000_S50000x1)
    (hc : (V c main_v52 : S512x1.Idx → EReal) = shapeCast S512x1 cnt shapeCasts_S512_S512x1)
    (hW1 : (V c main_arg8 : S256x1024.Idx → EReal) = Wm1)
    (hb1 : (V c main_v54 : S1x1024.Idx → EReal) = shapeCast S1x1024 bm1 shapeCasts_S1024_S1x1024)
    (hW2 : (V c main_arg10 : S1024x512.Idx → EReal) = Wm2)
    (hb2 : (V c main_v55 : S1x512.Idx → EReal) = shapeCast S1x512 bm2 shapeCasts_S512_S1x512)
    (hW3 : (V c main_arg12 : S512x1.Idx → EReal) = Wm3)
    (hb3 : (V c main_v56 : S1x1.Idx → EReal) = shapeCast S1x1 bm3 shapeCasts_S1_S1x1) :
    (shapeCast S512 ((dat2 V c).arrAt 9 cfg2.N) shapeCasts_S512x1_S512 : S512.Idx → EReal)
      = Gnn.PoolHead.refTail (Cert.ReferenceIdeal.HandRun.refPooled (F := Ideal) h2 gid) cnt Wm1 bm1 Wm2 bm2 Wm3 bm3 := by
  funext i
  obtain ⟨g, rfl⟩ : ∃ g : Fin 512, i = ix1 g := ⟨i 0, eq_ix1 i⟩
  rw [Gnn.PoolHead.shapeCast_a1_a_apply, Gnn.Pool2.final2 V c g, Gnn.PoolHead.refTail_apply, hh, hg, hc, hW1, hb1, hW2, hb2,
    hW3, hb3]
  simp only [refPooled_apply, shapeCast_a_1a_apply, shapeCast_a_a1_apply]

end Gnn.HeadBridge

end
-- ==== Proof.KHost.lean ====
import proofs.«414984_j37778532335670_1_alg».proof.Proof.Gen.KernelIdeal.Regions
import proofs.«414984_j37778532335670_1_alg».proof.Proof.RefRead
import Idealize.ShloMosaic.Lib.StableHlo.Run
import Idealize.ShloMosaic.PureOps.Ideal

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen
open Cert.ReferenceIdeal.HandRun (refDeg refWrap refAggr74 refAggr256 refCnt refPooled)

variable (m : (ℓ : Loc nD τ sig) → Buf (Elt Ideal) ℓ) (outs : Outs (F := Ideal))

theorem clip0_eq (v : Vec Ideal S50000 .f32) :
    ((TRef.of main_v4 : TRef sig ⟨S50000, .f32⟩).toBuf (Val := Elt Ideal)
        (maximumf (F := Ideal) (s := S50000) (φ := .f32)
          ((TRef.of main_call0_v1 : TRef sig ⟨S50000, .f32⟩).ofBuf (Val := Elt Ideal)
            ((TRef.of main_call0_v1 : TRef sig ⟨S50000, .f32⟩).toBuf (Val := Elt Ideal)
              (broadcastInDim (s := S_) (α := Elt Ideal .f32) S50000 ![] bcast_S_S50000
                ((TRef.of main_call0_v0 : TRef sig ⟨S_, .f32⟩).ofBuf (Val := Elt Ideal)
                  ((TRef.of main_call0_v0 : TRef sig ⟨S_, .f32⟩).toBuf (Val := Elt Ideal)
                    (id ((TRef.of main_cst_1 : TRef sig ⟨S_, .f32⟩).ofBuf (Val := Elt Ideal) (constant (F := Ideal) S_ .f32 0x3F800000#32))))))))
          ((TRef.of main_v3 : TRef sig ⟨S50000, .f32⟩).ofBuf (Val := Elt Ideal) v)) : Vec Ideal S50000 .f32)
      = maximumf (broadcastInDim S50000 ![] bcast_S_S50000 (id (constant (F := Ideal) S_ .f32 0x3F800000#32))) v := rfl

theorem clip1_eq (v : Vec Ideal S50000 .f32) :
    ((TRef.of main_v8 : TRef sig ⟨S50000, .f32⟩).toBuf (Val := Elt Ideal)
        (maximumf (F := Ideal) (s := S50000) (φ := .f32)
          ((TRef.of main_call1_v1 : TRef sig ⟨S50000, .f32⟩).ofBuf (Val := Elt Ideal)
            ((TRef.of main_call1_v1 : TRef sig ⟨S50000, .f32⟩).toBuf (Val := Elt Ideal)
              (broadcastInDim (s := S_) (α := Elt Ideal .f32) S50000 ![] bcast_S_S50000
                ((TRef.of main_call1_v0 : TRef sig ⟨S_, .f32⟩).ofBuf (Val := Elt Ideal)
                  ((TRef.of main_call1_v0 : TRef sig ⟨S_, .f32⟩).toBuf (Val := Elt Ideal)
                    (id ((TRef.of main_cst_3 : TRef sig ⟨S_, .f32⟩).ofBuf (Val := Elt Ideal) (constant (F := Ideal) S_ .f32 0x3F800000#32))))))))
          ((TRef.of main_v7 : TRef sig ⟨S50000, .f32⟩).ofBuf (Val := Elt Ideal) v)) : Vec Ideal S50000 .f32)
      = maximumf (broadcastInDim S50000 ![] bcast_S_S50000 (id (constant (F := Ideal) S_ .f32 0x3F800000#32))) v := rfl

set_option maxHeartbeats 4000000 in

theorem v26_eq (c : Dev nD) :
    (V5 m c main_v26 : Vec Ideal S50000x74 .f32)
      = refAggr74 (F := Ideal) (m ((c : Thread nD τ).loc main_arg0)) (m ((c : Thread nD τ).loc main_arg1)) (m ((c : Thread nD τ).loc main_arg2)) := by
  dsimp only [V5, V4, V3, V2, V1, V0]
  simp only [hostOps0, hostOps0_1, hostOps0_2, hostOps0_3, hostOps0_4]
  after_results_simp
  rw [clip0_eq, clip1_eq]
  rfl

set_option maxHeartbeats 4000000 in

theorem v27_eq (c : Dev nD) :
    (V5 m c main_v27 : Vec Ideal S1x256 .f32) = shapeCast S1x256 (m ((c : Thread nD τ).loc main_arg5)) shapeCasts_S256_S1x256 := by
  dsimp only [V5, V4, V3, V2, V1, V0]
  simp only [hostOps0, hostOps0_1, hostOps0_2, hostOps0_3, hostOps0_4]
  after_results_simp
  rfl

theorem V5_keep (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans ((V4_of m c r h3).trans ((V3_of m c r h2).trans ((V2_of m c r h1).trans (V1_of m c r h0))))

theorem v5_arg4 (c : Dev nD) : V5 m c main_arg4 = m ((c : Thread nD τ).loc main_arg4) :=
  V5_keep m c main_arg4 (by decide) (by decide) (by decide) (by decide) (by decide)

end Cert.KernelIdeal.HostRead

end
-- ==== Proof.KHost2.lean ====
import proofs.«414984_j37778532335670_1_alg».proof.Proof.Gen.KernelIdeal.Regions
import proofs.«414984_j37778532335670_1_alg».proof.Proof.RefRead
import proofs.«414984_j37778532335670_1_alg».proof.Proof.KHost
import Idealize.ShloMosaic.Lib.StableHlo.Run
import Idealize.ShloMosaic.PureOps.Ideal

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen
open Cert.ReferenceIdeal.HandRun (refDeg refWrap refAggr256 refCnt)

variable (m : (ℓ : Loc nD τ sig) → Buf (Elt Ideal) ℓ) (outs : Outs (F := Ideal))

theorem V6_launch (c : Dev nD) (r : Ref sig .tc) (h0 : r ∉ hostOps0_W) (h1 : r ∉ hostOps0_1_W) (h2 : r ∉ hostOps0_2_W) (h3 : r ∉ hostOps0_3_W)
    (h4 : r ∉ hostOps0_4_W) (h28 : r ∉ ([main_v28] : List (Ref sig .tc))) :
    V6 m outs c r = m ((c : Thread nD τ).loc r) :=
  (V6_of m outs c r h28).trans <| (V5_of m c r h4).trans <| (V4_of m c r h3).trans <| (V3_of m c r h2).trans <|
    (V2_of m c r h1).trans <| (V1_of m c r h0).trans rfl

theorem v6_v9 (c : Dev nD) :
    (V6 m outs c main_v9 : Vec Ideal S50000 .f32) = Host.rsqrt (F := Ideal) (φ := .f32) (refDeg (F := Ideal) (m ((c : Thread nD τ).loc main_arg1))) := by
  refine (V6_of m outs c main_v9 (by decide)).trans ?_
  dsimp only [V5, V4, V3, V2, V1, V0]
  simp only [hostOps0, hostOps0_1, hostOps0_2, hostOps0_3, hostOps0_4]
  after_results_simp
  rw [clip0_eq]
  rfl

theorem v6_v10 (c : Dev nD) :
    (V6 m outs c main_v10 : Vec Ideal S50000 .f32) = Host.rsqrt (F := Ideal) (φ := .f32) (refDeg (F := Ideal) (m ((c : Thread nD τ).loc main_arg2))) := by
  refine (V6_of m outs c main_v10 (by decide)).trans ?_
  dsimp only [V5, V4, V3, V2, V1, V0]
  simp only [hostOps0, hostOps0_1, hostOps0_2, hostOps0_3, hostOps0_4]
  after_results_simp
  rw [clip1_eq]
  rfl

theorem v44_eq (c : Dev nD) :
    (V7 m outs c main_v44 : Vec Ideal S50000x256 .f32)
      = refAggr256 (F := Ideal) (outs 6 main_v28 c) (m ((c : Thread nD τ).loc main_arg1)) (m ((c : Thread nD τ).loc main_arg2)) := by
  have h9 := v6_v9 m outs c
  have h10 := v6_v10 m outs c
  have h28 : V6 m outs c main_v28 = outs 6 main_v28 c := Function.update_self _ _ _
  have ha1 := V6_launch m outs c main_arg1 (by decide) (by decide) (by decide) (by decide) (by decide) (by decide)
  have ha2 := V6_launch m outs c main_arg2 (by decide) (by decide) (by decide) (by decide) (by decide) (by decide)
  dsimp only [V7]
  simp only [hostOps1]
  after_results_simp
  rw [h9, h10, h28, ha1, ha2]
  rfl

theorem v45_eq (c : Dev nD) :
    (V7 m outs c main_v45 : Vec Ideal S1x256 .f32)
      = shapeCast S1x256 (m ((c : Thread nD τ).loc main_arg7)) shapeCasts_S256_S1x256 := by
  have h := V6_launch m outs c main_arg7 (by decide) (by decide) (by decide) (by decide) (by decide) (by decide)
  dsimp only [V7]
  simp only [hostOps1]
  after_results_simp
  rw [h]
  rfl

theorem v7_arg6 (c : Dev nD) : V7 m outs c main_arg6 = (m ((c : Thread nD τ).loc main_arg6)) :=
  (V7_of m outs c main_arg6 (by decide)).trans (V6_launch m outs c main_arg6 (by decide) (by decide) (by decide) (by decide) (by decide) (by decide))

theorem V8_launch (c : Dev nD) (r : Ref sig .tc) (h0 : r ∉ hostOps0_W) (h1 : r ∉ hostOps0_1_W) (h2 : r ∉ hostOps0_2_W) (h3 : r ∉ hostOps0_3_W)
    (h4 : r ∉ hostOps0_4_W) (h28 : r ∉ ([main_v28] : List (Ref sig .tc))) (h5 : r ∉ hostOps1_W)
    (h46 : r ∉ ([main_v46] : List (Ref sig .tc))) :
    V8 m outs c r = m ((c : Thread nD τ).loc r) :=
  (V8_of m outs c r h46).trans <| (V7_of m outs c r h5).trans <| (V6_of m outs c r h28).trans <|
    (V5_of m c r h4).trans <| (V4_of m c r h3).trans <| (V3_of m c r h2).trans <| (V2_of m c r h1).trans <|
    (V1_of m c r h0).trans rfl

theorem V10_launch (c : Dev nD) (r : Ref sig .tc) (h0 : r ∉ hostOps0_W) (h1 : r ∉ hostOps0_1_W) (h2 : r ∉ hostOps0_2_W) (h3 : r ∉ hostOps0_3_W)
    (h4 : r ∉ hostOps0_4_W) (h28 : r ∉ ([main_v28] : List (Ref sig .tc))) (h5 : r ∉ hostOps1_W)
    (h46 : r ∉ ([main_v46] : List (Ref sig .tc))) (h6 : r ∉ hostOps2_W) (h7 : r ∉ hostOps2_1_W) :
    V10 m outs c r = m ((c : Thread nD τ).loc r) :=
  (V10_of m outs c r h7).trans <| (V9_of m outs c r h6).trans (V8_launch m outs c r h0 h1 h2 h3 h4 h28 h5 h46)

theorem V11_launch (c : Dev nD) (r : Ref sig .tc) (h0 : r ∉ hostOps0_W) (h1 : r ∉ hostOps0_1_W) (h2 : r ∉ hostOps0_2_W) (h3 : r ∉ hostOps0_3_W)
    (h4 : r ∉ hostOps0_4_W) (h28 : r ∉ ([main_v28] : List (Ref sig .tc))) (h5 : r ∉ hostOps1_W)
    (h46 : r ∉ ([main_v46] : List (Ref sig .tc))) (h6 : r ∉ hostOps2_W) (h7 : r ∉ hostOps2_1_W)
    (h8 : r ∉ hostOps2_2_W) : V11 m outs c r = m ((c : Thread nD τ).loc r) :=
  (V11_of m outs c r h8).trans (V10_launch m outs c r h0 h1 h2 h3 h4 h28 h5 h46 h6 h7)

theorem v46_eq (c : Dev nD) : V11 m outs c main_v46 = outs 8 main_v46 c :=
  (V11_of m outs c main_v46 (by decide)).trans <| (V10_of m outs c main_v46 (by decide)).trans <|
    (V9_of m outs c main_v46 (by decide)).trans (Function.update_self _ _ _)

theorem v11_arg8 (c : Dev nD) : V11 m outs c main_arg8 = (m ((c : Thread nD τ).loc main_arg8)) :=
  V11_launch m outs c main_arg8 (by decide) (by decide) (by decide) (by decide) (by decide) (by decide) (by decide) (by decide) (by decide) (by decide) (by decide)

theorem v11_arg10 (c : Dev nD) : V11 m outs c main_arg10 = (m ((c : Thread nD τ).loc main_arg10)) :=
  V11_launch m outs c main_arg10 (by decide) (by decide) (by decide) (by decide) (by decide) (by decide) (by decide) (by decide) (by decide) (by decide) (by decide)

theorem v11_arg12 (c : Dev nD) : V11 m outs c main_arg12 = (m ((c : Thread nD τ).loc main_arg12)) :=
  V11_launch m outs c main_arg12 (by decide) (by decide) (by decide) (by decide) (by decide) (by decide) (by decide) (by decide) (by decide) (by decide) (by decide)

theorem v53_eq (c : Dev nD) :
    (V11 m outs c main_v53 : Vec Ideal S50000x1 .i32)
      = shapeCast S50000x1 (m ((c : Thread nD τ).loc main_arg3)) shapeCasts_S50000_S50000x1 := by
  have h := V8_launch m outs c main_arg3 (by decide) (by decide) (by decide) (by decide) (by decide) (by decide) (by decide) (by decide)
  dsimp only [V11]
  simp only [hostOps2_2]
  after_results_simp
  rw [h]
  rfl

theorem v54_eq (c : Dev nD) :
    (V11 m outs c main_v54 : Vec Ideal S1x1024 .f32)
      = shapeCast S1x1024 (m ((c : Thread nD τ).loc main_arg9)) shapeCasts_S1024_S1x1024 := by
  have h := V8_launch m outs c main_arg9 (by decide) (by decide) (by decide) (by decide) (by decide) (by decide) (by decide) (by decide)
  dsimp only [V11]
  simp only [hostOps2_2]
  after_results_simp
  rw [h]
  rfl

theorem v55_eq (c : Dev nD) :
    (V11 m outs c main_v55 : Vec Ideal S1x512 .f32)
      = shapeCast S1x512 (m ((c : Thread nD τ).loc main_arg11)) shapeCasts_S512_S1x512 := by
  have h := V8_launch m outs c main_arg11 (by decide) (by decide) (by decide) (by decide) (by decide) (by decide) (by decide) (by decide)
  dsimp only [V11]
  simp only [hostOps2_2]
  after_results_simp
  rw [h]
  rfl

theorem v56_eq (c : Dev nD) :
    (V11 m outs c main_v56 : Vec Ideal S1x1 .f32)
      = shapeCast S1x1 (m ((c : Thread nD τ).loc main_arg13)) shapeCasts_S1_S1x1 := by
  have h := V8_launch m outs c main_arg13 (by decide) (by decide) (by decide) (by decide) (by decide) (by decide) (by decide) (by decide)
  dsimp only [V11]
  simp only [hostOps2_2]
  after_results_simp
  rw [h]
  rfl

theorem v52_eq (c : Dev nD) :
    (V11 m outs c main_v52 : Vec Ideal S512x1 .f32)
      = shapeCast S512x1 (refCnt (F := Ideal) (m ((c : Thread nD τ).loc main_arg3))) shapeCasts_S512_S512x1 := by
  have h := V8_launch m outs c main_arg3 (by decide) (by decide) (by decide) (by decide) (by decide) (by decide) (by decide) (by decide)
  dsimp only [V11]
  simp only [hostOps2_2]
  after_results_simp
  rw [h]
  rfl

theorem v58_eq (c : Dev nD) :
    (V13 m outs c main_v58 : Vec Ideal S512 .f32)
      = shapeCast S512 (outs 12 main_v57 c) shapeCasts_S512x1_S512 := by
  dsimp only [V13, V12]
  simp only [hostOps3]
  after_results_simp
  simp only [Function.update_self]
  rfl

end Cert.KernelIdeal.HostRead

end
-- ==== Proof.Bridge.lean ====
import proofs.«414984_j37778532335670_1_alg».proof.Proof.KI.Frame
import proofs.«414984_j37778532335670_1_alg».proof.Proof.Val.Layer
import proofs.«414984_j37778532335670_1_alg».proof.Proof.Val.HeadBridge
import proofs.«414984_j37778532335670_1_alg».proof.Proof.RefRead
import proofs.«414984_j37778532335670_1_alg».proof.Proof.KHost
import proofs.«414984_j37778532335670_1_alg».proof.Proof.KHost2

set_option maxRecDepth 16384

noncomputable section

namespace Cert.Bridge

open Idealize.ShloMosaic Idealize.ShloMosaic.TcCoe Idealize.SL.Sem
open Cert.KernelIdeal.Gen Cert.KernelIdeal.Hand Cert.KernelIdeal.HostRead
open Cert.ReferenceIdeal.HandRun (refAggr74 refAggr256 refCnt refPooled res res_eq)

section Kernel
open Cert.KernelIdeal

variable (m : (ℓ : Loc nD τ sig) → Buf (Elt Ideal) ℓ)

theorem layer0_eq (c : Dev nD) :
    ((dat0 (E5 m) c).arrAt 3 cfg0.N : S50000x256.Idx → EReal)
      = Gnn.LinRelu.refLayer0 (refAggr74 (F := Ideal) (m ((c : Thread nD τ).loc main_arg0)) (m ((c : Thread nD τ).loc main_arg1)) (m ((c : Thread nD τ).loc main_arg2)))
          (m ((c : Thread nD τ).loc main_arg4)) (m ((c : Thread nD τ).loc main_arg5)) :=
  Gnn.Layer.layer0 (E5 m) c _ _ _ (v26_eq m c) (v5_arg4 m c) (v27_eq m c)

theorem layer1_eq (c : Dev nD) :
    ((dat1 (E7 m) c).arrAt 3 cfg1.N : S50000x256.Idx → EReal)
      = Gnn.LinRelu.refLayer1
          (refAggr256 (F := Ideal)
            (Gnn.LinRelu.refLayer0 (refAggr74 (F := Ideal) (m ((c : Thread nD τ).loc main_arg0)) (m ((c : Thread nD τ).loc main_arg1)) (m ((c : Thread nD τ).loc main_arg2)))
              (m ((c : Thread nD τ).loc main_arg4)) (m ((c : Thread nD τ).loc main_arg5)))
            (m ((c : Thread nD τ).loc main_arg1)) (m ((c : Thread nD τ).loc main_arg2)))
          (m ((c : Thread nD τ).loc main_arg6)) (m ((c : Thread nD τ).loc main_arg7)) :=
  Gnn.Layer.layer1 (E7 m) c _ _ _
    ((v44_eq m (outsA m) c).trans (congrArg (fun h => refAggr256 (F := Ideal) h (m ((c : Thread nD τ).loc main_arg1)) (m ((c : Thread nD τ).loc main_arg2)))
      ((W6_arr m c 3).trans (layer0_eq m c))))
    (v7_arg6 m (outsA m) c) (v45_eq m (outsA m) c)

theorem kernel_eq (c : Dev nD) :
    (Gen.V13 m (outs m) c main_v58 : S512.Idx → EReal)
      = Gnn.PoolHead.refTail
          (refPooled (F := Ideal)
            (Gnn.LinRelu.refLayer1
              (refAggr256 (F := Ideal)
                (Gnn.LinRelu.refLayer0 (refAggr74 (F := Ideal) (m ((c : Thread nD τ).loc main_arg0)) (m ((c : Thread nD τ).loc main_arg1)) (m ((c : Thread nD τ).loc main_arg2)))
                  (m ((c : Thread nD τ).loc main_arg4)) (m ((c : Thread nD τ).loc main_arg5)))
                (m ((c : Thread nD τ).loc main_arg1)) (m ((c : Thread nD τ).loc main_arg2)))
              (m ((c : Thread nD τ).loc main_arg6)) (m ((c : Thread nD τ).loc main_arg7)))
            (m ((c : Thread nD τ).loc main_arg3)))
          (refCnt (F := Ideal) (m ((c : Thread nD τ).loc main_arg3)))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) := by
  refine (v58_eq m (outs m) c).trans ?_
  rw [outs12_eq m c]
  exact Gnn.HeadBridge.head2 (E11 m) c _ _ _ _ _ _ _ _ _
    ((v46_eq m (outsB m) c).trans ((W8_arr m c 3).trans (layer1_eq m c)))
    (v53_eq m (outsB m) c) (v52_eq m (outsB m) c) (v11_arg8 m (outsB m) c) (v54_eq m (outsB m) c)
    (v11_arg10 m (outsB m) c) (v55_eq m (outsB m) c) (v11_arg12 m (outsB m) c) (v56_eq m (outsB m) c)

end Kernel

end Cert.Bridge

end
-- ==== Proof.lean ====
import proofs.«414984_j37778532335670_1_alg».proof.Defs
import proofs.«414984_j37778532335670_1_alg».proof.Proof.Gen.Kernel
import proofs.«414984_j37778532335670_1_alg».proof.Proof.Gen.KernelIdeal
import proofs.«414984_j37778532335670_1_alg».proof.Proof.Gen.ReferenceIdeal
import proofs.«414984_j37778532335670_1_alg».proof.Proof.Gen.Pre_finite_inputs
import proofs.«414984_j37778532335670_1_alg».proof.Proof.KI.Frame
import proofs.«414984_j37778532335670_1_alg».proof.Proof.RefRun
import proofs.«414984_j37778532335670_1_alg».proof.Proof.Bridge
import Idealize.ShloMosaic.Adequacy
import Idealize.ShloMosaic.Init

noncomputable section

namespace Cert.Proof

open Idealize.ShloMosaic Idealize.ShloMosaic.TcCoe Idealize.SL.Sem

set_option maxHeartbeats 2000000 in
/-- The word-level program and the idealized one are the same text: label by label their kernels are the same terms. -/
theorem defs_eq {F : FTy → Type} [FloatOps F] : Cert.Kernel.defs (F := F) = Cert.KernelIdeal.defs (F := F) :=
  congrArg (Pipeline.defs Cert.KernelIdeal.pcfgs ∘ Defs.onTc) (funext fun l => funext fun a => by
    match l, a with
    | 0, _ => rfl
    | 1, _ => rfl
    | 2, _ => rfl
    | ⟨_ + 3, h⟩, _ => exact absurd h (by omega))

set_option maxHeartbeats 2000000 in
/-- The frame argument never reads a float value, so it holds at every float instance, the word-level one included. -/
theorem frame_k : Cert.frame_Kernel := fun m ρ _ => by
  rw [defs_eq]
  exact Cert.KernelIdeal.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- Both runs end at the reference's composition of stages of the arguments. -/
theorem algebraic : Cert.algebraic_KernelIdeal_ReferenceIdeal := by
  intro m ρ m' ρ' _ hagree
  refine ⟨fun c => Cert.ReferenceIdeal.HandRun.res m' c, ?_, Cert.ReferenceIdeal.HandRun.run m' ρ'⟩
  refine (θ_run Cert.KernelIdeal.defs _ _).mono (fun r h c => ?_) (Cert.KernelIdeal.Hand.run_all m ρ)
  have hb := fun (b : Ref Cert.KernelIdeal.sig .tc) (hs : ¬ (Proc.devRef .tc b : DevRef Cert.KernelIdeal.τ Cert.KernelIdeal.sig).isScoped) =>
    h c _ (Finset.mem_filter.mpr ⟨StableHlo.devRef_mem_tcRefs b, hs⟩)
  refine ⟨(hb Cert.KernelIdeal.main_v58 (by decide)).trans (by
      obtain ⟨a0, a1, a2, a3, a4, a5, a6, a7, a8, a9, a10, a11, a12, a13⟩ := hagree c
      show _ = Cert.ReferenceIdeal.HandRun.res m' c
      rw [Cert.ReferenceIdeal.HandRun.res_eq m' c, a0, a1, a2, a3, a4, a5, a6, a7, a8, a9, a10, a11, a12, a13]
      exact Cert.Bridge.kernel_eq m c),
    (hb Cert.KernelIdeal.main_arg0 (by decide)).trans (Cert.KernelIdeal.Gen.V13_main_arg0 m _ c),
    (hb Cert.KernelIdeal.main_arg1 (by decide)).trans (Cert.KernelIdeal.Gen.V13_main_arg1 m _ c),
    (hb Cert.KernelIdeal.main_arg2 (by decide)).trans (Cert.KernelIdeal.Gen.V13_main_arg2 m _ c),
    (hb Cert.KernelIdeal.main_arg3 (by decide)).trans (Cert.KernelIdeal.Gen.V13_main_arg3 m _ c),
    (hb Cert.KernelIdeal.main_arg4 (by decide)).trans (Cert.KernelIdeal.Gen.V13_main_arg4 m _ c),
    (hb Cert.KernelIdeal.main_arg5 (by decide)).trans (Cert.KernelIdeal.Gen.V13_main_arg5 m _ c),
    (hb Cert.KernelIdeal.main_arg6 (by decide)).trans (Cert.KernelIdeal.Gen.V13_main_arg6 m _ c),
    (hb Cert.KernelIdeal.main_arg7 (by decide)).trans (Cert.KernelIdeal.Gen.V13_main_arg7 m _ c),
    (hb Cert.KernelIdeal.main_arg8 (by decide)).trans (Cert.KernelIdeal.Gen.V13_main_arg8 m _ c),
    (hb Cert.KernelIdeal.main_arg9 (by decide)).trans (Cert.KernelIdeal.Gen.V13_main_arg9 m _ c),
    (hb Cert.KernelIdeal.main_arg10 (by decide)).trans (Cert.KernelIdeal.Gen.V13_main_arg10 m _ c),
    (hb Cert.KernelIdeal.main_arg11 (by decide)).trans (Cert.KernelIdeal.Gen.V13_main_arg11 m _ c),
    (hb Cert.KernelIdeal.main_arg12 (by decide)).trans (Cert.KernelIdeal.Gen.V13_main_arg12 m _ c),
    (hb Cert.KernelIdeal.main_arg13 (by decide)).trans (Cert.KernelIdeal.Gen.V13_main_arg13 m _ c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
